-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x8 : Shape := ⟨2, ![800000, 8]⟩
abbrev S50000 : Shape := ⟨1, ![50000]⟩
abbrev S4x136 : Shape := ⟨2, ![4, 136]⟩
abbrev S4 : Shape := ⟨1, ![4]⟩
abbrev S64x68 : Shape := ⟨2, ![64, 68]⟩
abbrev S64 : Shape := ⟨1, ![64]⟩
abbrev S16x64 : Shape := ⟨2, ![16, 64]⟩
abbrev S16 : Shape := ⟨1, ![16]⟩
abbrev S2x16 : Shape := ⟨2, ![2, 16]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S4x136 : S_.BroadcastsInDim S4x136 (![] : Fin 0 → Fin S4x136.rank)
  reducesTo_S4x136_S_d0_1 : S4x136.ReducesTo [0, 1] S_
  bcast_S_S4 : S_.BroadcastsInDim S4 (![] : Fin 0 → Fin S4.rank)
  reducesTo_S4_S_d0 : S4.ReducesTo [0] S_
  bcast_S_S64x68 : S_.BroadcastsInDim S64x68 (![] : Fin 0 → Fin S64x68.rank)
  reducesTo_S64x68_S_d0_1 : S64x68.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S2x16 : S_.BroadcastsInDim S2x16 (![] : Fin 0 → Fin S2x16.rank)
  reducesTo_S2x16_S_d0_1 : S2x16.ReducesTo [0, 1] S_
  bcast_S_S2 : S_.BroadcastsInDim S2 (![] : Fin 0 → Fin S2.rank)
  reducesTo_S2_S_d0 : S2.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg1 main_v69
  let main_c_27 : IVec S_ 1 := constantI S_ 1 1#1
  let main_v71 : IVec S_ 1 := (fun x v => Host.reduce IntOp.andi x v reducesTo_S2x800000_S_d0_1 h_S_) main_v70 main_c_27
  let main_v72 : IVec S_ 1 := andi main_v68 main_v71
  let main_c_28 : IVec S_ 32 := constantI S_ 32 50000#32
  let main_v73 : IVec S2x800000 32 := broadcastInDim S2x800000 ![] bcast_S_S2x800000 main_c_28
  let main_v74 : IVec S2x800000 1 := cmpi .slt main_arg1 main_v73
  let main_c_29 : IVec S_ 1 := constantI S_ 1 1#1
  let main_v75 : IVec S_ 1 := (fun x v => Host.reduce IntOp.andi x v reducesTo_S2x800000_S_d0_1 h_S_) main_v74 main_c_29
  let main_v76 : IVec S_ 1 := andi main_v72 main_v75
  main_v76

def fn_part3 {F : FTy → Type} [FloatOps F] (main_arg1 : IVec S2x800000 32) (main_arg13 : FVec F S16 .f32) (main_arg14 : FVec F S2x16 .f32) (main_arg15 : FVec F S2 .f32) (main_v48 : IVec S_ 1) (main_v49 : FVec F S16x64 .f32) (main_v50 : FVec F S16x64 .f32) : IVec S_ 1 :=
  let main_v51 : IVec S16x64 1 := cmpf .olt main_v49 main_v50
  let main_c_19 : IVec S_ 1 := constantI S_ 1 1#1
  let main_v52 : IVec S_ 1 := (fun x v => Host.reduce IntOp.andi x v reducesTo_S16x64_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S2x16 .f32 := Host.absf main_arg14
  let main_cst_22 : FVec F S_ .f32 := constant S_ .f32 0x7F800000#32
  let main_v60 : FVec F S2x16 .f32 := broadcastInDim S2x16 ![] bcast_S_S2x16 main_cst_22
  let main_v61 : IVec S2x16 1 := cmpf .olt main_v59 main_v60
  let main_c_23 : IVec S_ 1 := constantI S_ 1 1#1
  let main_v62 : IVec S_ 1 := (fun x v => Host.reduce IntOp.andi x v reducesTo_S2x16_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg1 main_v63 main_v67

def fn_part2 {F : FTy → Type} [FloatOps F] (main_arg1 : IVec S2x800000 32) (main_arg9 : FVec F S4 .f32) (main_arg10 : FVec F S64x68 .f32) (main_arg11 : FVec F S64 .f32) (main_arg12 : FVec F S16x64 .f32) (main_arg13 : FVec F S16 .f32) (main_arg14 : FVec F S2x16 .f32) (main_arg15 : FVec F S2 .f32) (main_v33 : IVec S_ 1) : IVec S_ 1 :=
  let main_v34 : FVec F S4 .f32 := Host.absf main_arg9
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S64x68 .f32 := Host.absf main_arg10
  let main_cst_14 : FVec F S_ .f32 := constant S_ .f32 0x7F800000#32
  let main_v40 : FVec F S64x68 .f32 := broadcastInDim S64x68 ![] bcast_S_S64x68 main_cst_14
  let main_v41 : IVec S64x68 1 := cmpf .olt main_v39 main_v40
  let main_c_15 : IVec S_ 1 := constantI S_ 1 1#1
  let main_v42 : IVec S_ 1 := (fun x v => Host.reduce IntOp.andi x v reducesTo_S64x68_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S16x64 .f32 := Host.absf main_arg12
  let main_cst_18 : FVec F S_ .f32 := constant S_ .f32 0x7F800000#32
  let main_v50 : FVec F S16x64 .f32 := broadcastInDim S16x64 ![] bcast_S_S16x64 main_cst_18
  fn_part3 (F := F) main_arg1 main_arg13 main_arg14 main_arg15 main_v48 main_v49 main_v50

def fn_part1 {F : FTy → Type} [FloatOps F] (main_arg1 : IVec S2x800000 32) (main_arg6 : FVec F S64x68 .f32) (main_arg7 : FVec F S64 .f32) (main_arg8 : FVec F S4x136 .f32) (main_arg9 : FVec F S4 .f32) (main_arg10 : FVec F S64x68 .f32) (main_arg11 : FVec F S64 .f32) (main_arg12 : FVec F S16x64 .f32) (main_arg13 : FVec F S16 .f32) (main_arg14 : FVec F S2x16 .f32) (main_arg15 : FVec F S2 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S64x68 .f32 := Host.absf main_arg6
  let main_cst_6 : FVec F S_ .f32 := constant S_ .f32 0x7F800000#32
  let main_v20 : FVec F S64x68 .f32 := broadcastInDim S64x68 ![] bcast_S_S64x68 main_cst_6
  let main_v21 : IVec S64x68 1 := cmpf .olt main_v19 main_v20
  let main_c_7 : IVec S_ 1 := constantI S_ 1 1#1
  let main_v22 : IVec S_ 1 := (fun x v => Host.reduce IntOp.andi x v reducesTo_S64x68_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S4x136 .f32 := Host.absf main_arg8
  let main_cst_10 : FVec F S_ .f32 := constant S_ .f32 0x7F800000#32
  let main_v30 : FVec F S4x136 .f32 := broadcastInDim S4x136 ![] bcast_S_S4x136 main_cst_10
  let main_v31 : IVec S4x136 1 := cmpf .olt main_v29 main_v30
  let main_c_11 : IVec S_ 1 := constantI S_ 1 1#1
  let main_v32 : IVec S_ 1 := (fun x v => Host.reduce IntOp.andi x v reducesTo_S4x136_S_d0_1 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S50000x64 .f32) (main_arg1 : IVec S2x800000 32) (main_arg2 : FVec F S800000x8 .f32) (main_arg3 : IVec S50000 32) (main_arg4 : FVec F S4x136 .f32) (main_arg5 : FVec F S4 .f32) (main_arg6 : FVec F S64x68 .f32) (main_arg7 : FVec F S64 .f32) (main_arg8 : FVec F S4x136 .f32) (main_arg9 : FVec F S4 .f32) (main_arg10 : FVec F S64x68 .f32) (main_arg11 : FVec F S64 .f32) (main_arg12 : FVec F S16x64 .f32) (main_arg13 : FVec F S16 .f32) (main_arg14 : FVec F S2x16 .f32) (main_arg15 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S4x136 .f32 := Host.absf main_arg4
  let main_cst_2 : FVec F S_ .f32 := constant S_ .f32 0x7F800000#32
  let main_v10 : FVec F S4x136 .f32 := broadcastInDim S4x136 ![] bcast_S_S4x136 main_cst_2
  let main_v11 : IVec S4x136 1 := cmpf .olt main_v9 main_v10
  let main_c_3 : IVec S_ 1 := constantI S_ 1 1#1
  let main_v12 : IVec S_ 1 := (fun x v => Host.reduce IntOp.andi x v reducesTo_S4x136_S_d0_1 h_S_) main_v11 main_c_3
  let main_v13 : IVec S_ 1 := andi main_v8 main_v12
  let main_v14 : FVec F S4 .f32 := Host.absf main_arg5
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S800000x8 : Shape := ⟨2, ![800000, 8]⟩
abbrev S50000 : Shape := ⟨1, ![50000]⟩
abbrev S4x136 : Shape := ⟨2, ![4, 136]⟩
abbrev S4 : Shape := ⟨1, ![4]⟩
abbrev S64x68 : Shape := ⟨2, ![64, 68]⟩
abbrev S64 : Shape := ⟨1, ![64]⟩
abbrev S16x64 : Shape := ⟨2, ![16, 64]⟩
abbrev S16 : Shape := ⟨1, ![16]⟩
abbrev S2x16 : Shape := ⟨2, ![2, 16]⟩
abbrev S2 : Shape := ⟨1, ![2]⟩
abbrev S1x800000 : Shape := ⟨2, ![1, 800000]⟩
abbrev S800000 : Shape := ⟨1, ![800000]⟩
abbrev S50000x1 : Shape := ⟨2, ![50000, 1]⟩
abbrev S4x64 : Shape := ⟨2, ![4, 64]⟩
abbrev S4x8 : Shape := ⟨2, ![4, 8]⟩
abbrev S64x64 : Shape := ⟨2, ![64, 64]⟩
abbrev S64x4 : Shape := ⟨2, ![64, 4]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S800000x4 : Shape := ⟨2, ![800000, 4]⟩
abbrev S6400x64 : Shape := ⟨2, ![6400, 64]⟩
abbrev S6400x8 : Shape := ⟨2, ![6400, 8]⟩
abbrev S6400x4 : Shape := ⟨2, ![6400, 4]⟩
abbrev S8x4 : Shape := ⟨2, ![8, 4]⟩
abbrev S1x4 : Shape := ⟨2, ![1, 4]⟩
abbrev S6400 : Shape := ⟨1, ![6400]⟩
abbrev S6400x1 : Shape := ⟨2, ![6400, 1]⟩
abbrev S50000x4 : Shape := ⟨2, ![50000, 4]⟩
abbrev S2000x64 : Shape := ⟨2, ![2000, 64]⟩
abbrev S2000x4 : Shape := ⟨2, ![2000, 4]⟩
abbrev S1x64 : Shape := ⟨2, ![1, 64]⟩
abbrev S512x2 : Shape := ⟨2, ![512, 2]⟩
abbrev S2000x1 : Shape := ⟨2, ![2000, 1]⟩
abbrev S512x64 : Shape := ⟨2, ![512, 64]⟩
abbrev S512x1 : Shape := ⟨2, ![512, 1]⟩
abbrev S2000x512 : Shape := ⟨2, ![2000, 512]⟩
abbrev S512 : Shape := ⟨1, ![512]⟩
abbrev S1x512 : Shape := ⟨2, ![1, 512]⟩
abbrev S64x16 : Shape := ⟨2, ![64, 16]⟩
abbrev S512x16 : Shape := ⟨2, ![512, 16]⟩
abbrev S1x16 : Shape := ⟨2, ![1, 16]⟩
abbrev S16x2 : Shape := ⟨2, ![16, 2]⟩
abbrev S1x2 : Shape := ⟨2, ![1, 2]⟩

abbrev nBuf : Space → Nat
  | .hbm => 136
  | .vmem => 53
  | .smem => 0
  | _ => 0

abbrev hbmTy0_0 (i : Nat) : BufTy := match i % 128 with
  | 0 => ⟨S50000x64, .f32⟩
  | 1 => ⟨S2x800000, .i32⟩
  | 2 => ⟨S800000x8, .f32⟩
  | 3 => ⟨S50000, .i32⟩
  | 4 => ⟨S4x136, .f32⟩
  | 5 => ⟨S4, .f32⟩
  | 6 => ⟨S64x68, .f32⟩
  | 7 => ⟨S64, .f32⟩
  | 8 => ⟨S4x136, .f32⟩
  | 9 => ⟨S4, .f32⟩
  | 10 => ⟨S64x68, .f32⟩
  | 11 => ⟨S64, .f32⟩
  | 12 => ⟨S16x64, .f32⟩
  | 13 => ⟨S16, .f32⟩
  | 14 => ⟨S2x16, .f32⟩
  | 15 => ⟨S2, .f32⟩
  | 16 => ⟨S1x800000, .i32⟩
  | 17 => ⟨S800000, .i32⟩
  | 18 => ⟨S1x800000, .i32⟩
  | 19 => ⟨S800000, .i32⟩
  | 20 => ⟨S50000x1, .i32⟩
  | 21 => ⟨S4x64, .f32⟩
  | 22 => ⟨S4x64, .f32⟩
  | 23 => ⟨S4x8, .f32⟩
  | 24 => ⟨S4x64, .f32⟩
  | 25 => ⟨S4x64, .f32⟩
  | 26 => ⟨S4x8, .f32⟩
  | 27 => ⟨S64x64, .f32⟩
  | 28 => ⟨S64x4, .f32⟩
  | 29 => ⟨S64x64, .f32⟩
  | 30 => ⟨S64x4, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S1, .i32⟩
  | 40 => ⟨S_, .i32⟩
  | 41 => ⟨S800000x1, .i32⟩
  | 42 => ⟨S800000x1, .i1⟩
  | 43 => ⟨S1x1, .i32⟩
  | 44 => ⟨S800000x1, .i32⟩
  | 45 => ⟨S800000x1, .i1⟩
  | 46 => ⟨S800000x1, .i1⟩
  | 47 => ⟨S_, .i1⟩
  | 48 => ⟨S800000, .i1⟩
  | 49 => ⟨S800000x64, .f32⟩
  | 50 => ⟨S800000x64, .i1⟩
  | 51 => ⟨S_, .f32⟩
  | 52 => ⟨S800000x64, .f32⟩
  | 53 => ⟨S800000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S1, .i32⟩
  | 63 => ⟨S_, .i32⟩
  | 64 => ⟨S800000x1, .i32⟩
  | 65 => ⟨S800000x1, .i1⟩
  | 66 => ⟨S1x1, .i32⟩
  | 67 => ⟨S800000x1, .i32⟩
  | 68 => ⟨S800000x1, .i1⟩
  | 69 => ⟨S800000x1, .i1⟩
  | 70 => ⟨S_, .i1⟩
  | 71 => ⟨S800000, .i1⟩
  | 72 => ⟨S800000x64, .f32⟩
  | 73 => ⟨S800000x64, .i1⟩
  | 74 => ⟨S_, .f32⟩
  | 75 => ⟨S800000x64, .f32⟩
  | 76 => ⟨S800000x64, .f32⟩
  | 77 => ⟨S800000x4, .f32⟩
  | 78 => ⟨S_, .f32⟩
  | 79 => ⟨S50000x4, .f32⟩
  | 80 => ⟨S800000x1, .i32⟩
  | 81 => ⟨S50000x4, .f32⟩
  | 82 => ⟨S50000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S1, .i32⟩
  | 92 => ⟨S_, .i32⟩
  | 93 => ⟨S800000x1, .i32⟩
  | 94 => ⟨S800000x1, .i1⟩
  | 95 => ⟨S1x1, .i32⟩
  | 96 => ⟨S800000x1, .i32⟩
  | 97 => ⟨S800000x1, .i1⟩
  | 98 => ⟨S800000x1, .i1⟩
  | 99 => ⟨S_, .i1⟩
  | 100 => ⟨S800000, .i1⟩
  | 101 => ⟨S800000x64, .f32⟩
  | 102 => ⟨S800000x64, .i1⟩
  | 103 => ⟨S_, .f32⟩
  | 104 => ⟨S800000x64, .f32⟩
  | 105 => ⟨S800000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S1, .i32⟩
  | 115 => ⟨S_, .i32⟩
  | 116 => ⟨S800000x1, .i32⟩
  | 117 => ⟨S800000x1, .i1⟩
  | 118 => ⟨S1x1, .i32⟩
  | 119 => ⟨S800000x1, .i32⟩
  | 120 => ⟨S800000x1, .i1⟩
  | 121 => ⟨S800000x1, .i1⟩
  | 122 => ⟨S_, .i1⟩
  | 123 => ⟨S800000, .i1⟩
  | 124 => ⟨S800000x64, .f32⟩
  | 125 => ⟨S800000x64, .i1⟩
  | 126 => ⟨S_, .f32⟩
  | 127 => ⟨S800000x64, .f32⟩
  | _ => ⟨S50000x64, .f32⟩

abbrev hbmTy0_1 (i : Nat) : BufTy := match i % 128 with
  | 0 => ⟨S800000x64, .f32⟩
  | 1 => ⟨S800000x4, .f32⟩
  | 2 => ⟨S_, .f32⟩
  | 3 => ⟨S50000x4, .f32⟩
  | 4 => ⟨S800000x1, .i32⟩
  | 5 => ⟨S50000x4, .f32⟩
  | 6 => ⟨S50000x64, .f32⟩
  | 7 => ⟨S512x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x8, .f32⟩
  | .local _ .vmem, ⟨5, _⟩ => ⟨S6400x8, .f32⟩
  | .local _ .vmem, ⟨6, _⟩ => ⟨S4x64, .f32⟩
  | .local _ .vmem, ⟨7, _⟩ => ⟨S4x64, .f32⟩
  | .local _ .vmem, ⟨8, _⟩ => ⟨S4x8, .f32⟩
  | .local _ .vmem, ⟨9, _⟩ => ⟨S4, .f32⟩
  | .local _ .vmem, ⟨10, _⟩ => ⟨S6400x4, .f32⟩
  | .local _ .vmem, ⟨11, _⟩ => ⟨S6400x4, .f32⟩
  | .local _ .vmem, ⟨12, _⟩ => ⟨S2000x64, .f32⟩
  | .local _ .vmem, ⟨13, _⟩ => ⟨S2000x64, .f32⟩
  | .local _ .vmem, ⟨14, _⟩ => ⟨S2000x4, .f32⟩
  | .local _ .vmem, ⟨15, _⟩ => ⟨S2000x4, .f32⟩
  | .local _ .vmem, ⟨16, _⟩ => ⟨S64x64, .f32⟩
  | .local _ .vmem, ⟨17, _⟩ => ⟨S64x4, .f32⟩
  | .local _ .vmem, ⟨18, _⟩ => ⟨S64, .f32⟩
  | .local _ .vmem, ⟨19, _⟩ => ⟨S2000x64, .f32⟩
  | .local _ .vmem, ⟨20, _⟩ => ⟨S2000x64, .f32⟩
  | .local _ .vmem, ⟨21, _⟩ => ⟨S6400x64, .f32⟩
  | .local _ .vmem, ⟨22, _⟩ => ⟨S6400x64, .f32⟩
  | .local _ .vmem, ⟨23, _⟩ => ⟨S6400x64, .f32⟩
  | .local _ .vmem, ⟨24, _⟩ => ⟨S6400x64, .f32⟩
  | .local _ .vmem, ⟨25, _⟩ => ⟨S6400x8, .f32⟩
  | .local _ .vmem, ⟨26, _⟩ => ⟨S6400x8, .f32⟩
  | .local _ .vmem, ⟨27, _⟩ => ⟨S4x64, .f32⟩
  | .local _ .vmem, ⟨28, _⟩ => ⟨S4x64, .f32⟩
  | .local _ .vmem, ⟨29, _⟩ => ⟨S4x8, .f32⟩
  | .local _ .vmem, ⟨30, _⟩ => ⟨S4, .f32⟩
  | .local _ .vmem, ⟨31, _⟩ => ⟨S6400x4, .f32⟩
  | .local _ .vmem, ⟨32, _⟩ => ⟨S6400x4, .f32⟩
  | .local _ .vmem, ⟨33, _⟩ => ⟨S2000x64, .f32⟩
  | .local _ .vmem, ⟨34, _⟩ => ⟨S2000x64, .f32⟩
  | .local _ .vmem, ⟨35, _⟩ => ⟨S2000x4, .f32⟩
  | .local _ .vmem, ⟨36, _⟩ => ⟨S2000x4, .f32⟩
  | .local _ .vmem, ⟨37, _⟩ => ⟨S64x64, .f32⟩
  | .local _ .vmem, ⟨38, _⟩ => ⟨S64x4, .f32⟩
  | .local _ .vmem, ⟨39, _⟩ => ⟨S64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x1, .i32⟩
  | .local _ .vmem, ⟨45, _⟩ => ⟨S2000x1, .i32⟩
  | .local _ .vmem, ⟨46, _⟩ => ⟨S16x64, .f32⟩
  | .local _ .vmem, ⟨47, _⟩ => ⟨S16, .f32⟩
  | .local _ .vmem, ⟨48, _⟩ => ⟨S2x16, .f32⟩
  | .local _ .vmem, ⟨49, _⟩ => ⟨S2, .f32⟩
  | .local _ .vmem, ⟨50, _⟩ => ⟨S512x2, .f32⟩
  | .local _ .vmem, ⟨51, _⟩ => ⟨S512x64, .f32⟩
  | .local _ .vmem, ⟨52, _⟩ => ⟨S512x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v15 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v16 : Ref sig .tc := ⟨.hbm, 76, rfl⟩
abbrev main_v17 : Ref sig .tc := ⟨.hbm, 77, rfl⟩
abbrev main_cst : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v22 : Ref sig .tc := ⟨.hbm, 105, rfl⟩
abbrev main_call3_c : Ref sig .tc := ⟨.hbm, 106, rfl⟩
abbrev main_call3_v0 : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_v5 : Ref sig .tc := ⟨.hbm, 113, rfl⟩
abbrev main_call3_c_1 : Ref sig .tc := ⟨.hbm, 114, rfl⟩
abbrev main_call3_c_2 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_c_3 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_call3_cst : Ref sig .tc := ⟨.hbm, 126, rfl⟩
abbrev main_call3_v15 : Ref sig .tc := ⟨.hbm, 127, rfl⟩
abbrev main_v23 : Ref sig .tc := ⟨.hbm, 128, rfl⟩
abbrev main_v24 : Ref sig .tc := ⟨.hbm, 129, rfl⟩
abbrev main_cst_0 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_v29 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_scratch0 : Ref sig .tc := ⟨.vmem, 51, rfl⟩
abbrev cc4_scratch1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S6400x4 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x4 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v26 : BitVec 1 := Scalar.cmpi .eq arg0 c24_i32
  let v27 : BitVec 32 := Scalar.extui v26
  let c0_i32_13 : BitVec 32 := 0#32
  let v28 : BitVec 1 := Scalar.cmpi .ne v27 c0_i32_13
  v28

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  slices_S4x136_S4x64_0_0 : S4x136.Slices ![0, 0] S4x64
  slices_S4x136_S4x64_0_64 : S4x136.Slices ![0, 64] S4x64
  slices_S4x136_S4x8_0_128 : S4x136.Slices ![0, 128] S4x8
  slices_S64x68_S64x64_0_0 : S64x68.Slices ![0, 0] S64x64
  slices_S64x68_S64x4_0_64 : S64x68.Slices ![0, 64] S64x4
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S4x64_S4x64_0_0 : ∀ a, (![0, 0] : Fin 2 → Nat) a + S4x64.size a ≤ S4x64.size a
  h_S4x64 : 0 < S4x64.numel
  shapeCasts_S4x64_S4x64 : S4x64.ShapeCasts S4x64
  transposes_S4x64_p1_0_S64x4 : S4x64.Transposes [1, 0] S64x4
  inb_S6400x8_S6400x8_0_0 : ∀ a, (![0, 0] : Fin 2 → Nat) a + S6400x8.size a ≤ S6400x8.size a
  h_S6400x8 : 0 < S6400x8.numel
  inb_S4x8_S4x8_0_0 : ∀ a, (![0, 0] : Fin 2 → Nat) a + S4x8.size a ≤ S4x8.size a
  h_S4x8 : 0 < S4x8.numel
  shapeCasts_S4x8_S4x8 : S4x8.ShapeCasts S4x8
  transposes_S4x8_p1_0_S8x4 : S4x8.Transposes [1, 0] S8x4
  inb_S4_S4_0 : ∀ a, (![0] : Fin 1 → Nat) a + S4.size a ≤ S4.size a
  h_S4 : 0 < S4.numel
  shapeCasts_S4_S1x4 : S4.ShapeCasts S1x4
  broadcasts_S1x4_S6400x4 : S1x4.Broadcasts S6400x4
  reduces_S6400x4_S6400 : S6400x4.Reduces [1] S6400
  shapeCasts_S6400_S6400x1 : S6400.ShapeCasts S6400x1
  broadcasts_S6400x1_S6400x4 : S6400x1.Broadcasts S6400x4
  inb_S6400x4_S6400x4_0_0 : ∀ a, (![0, 0] : Fin 2 → Nat) a + S6400x4.size a ≤ S6400x4.size a
  h_S6400x4 : 0 < S6400x4.numel
  bcast_S_S50000x4 : S_.BroadcastsInDim S50000x4 (![] : Fin 0 → Fin S50000x4.rank)
  inb_S2000x64_S2000x64_0_0 : ∀ a, (![0, 0] : Fin 2 → Nat) a + S2000x64.size a ≤ S2000x64.size a
  h_S2000x64 : 0 < S2000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  inb_S2000x4_S2000x4_0_0 : ∀ a, (![0, 0] : Fin 2 → Nat) a + S2000x4.size a ≤ S2000x4.size a
  h_S2000x4 : 0 < S2000x4.numel
  shapeCasts_S2000x4_S2000x4 : S2000x4.ShapeCasts S2000x4
  inb_S64x4_S64x4_0_0 : ∀ a, (![0, 0] : Fin 2 → Nat) a + S64x4.size a ≤ S64x4.size a
  h_S64x4 : 0 < S64x4.numel
  shapeCasts_S64x4_S64x4 : S64x4.ShapeCasts S64x4
  transposes_S64x4_p1_0_S4x64 : S64x4.Transposes [1, 0] S4x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  shapeCasts_S2000x64_S2000x64 : S2000x64.ShapeCasts S2000x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S2000x512_d1_w32 : S2000x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  natLt_1_32 : 1 < 32
  reduces_S2000x512_S512 : S2000x512.Reduces [0] S512
  shapeCasts_S512_S1x512 : S512.ShapeCasts S1x512
  transposes_S1x512_p1_0_S512x1 : S1x512.Transposes [1, 0] S512x1
  broadcasts_S512x1_S512x64 : S512x1.Broadcasts S512x64
  inb_S16x64_S16x64_0_0 : ∀ a, (![0, 0] : Fin 2 → Nat) a + S16x64.size a ≤ S16x64.size a
  h_S16x64 : 0 < S16x64.numel
  transposes_S16x64_p1_0_S64x16 : S16x64.Transposes [1, 0] S64x16
  inb_S16_S16_0 : ∀ a, (![0] : Fin 1 → Nat) a + S16.size a ≤ S16.size a
  h_S16 : 0 < S16.numel
  shapeCasts_S16_S1x16 : S16.ShapeCasts S1x16
  broadcasts_S1x16_S512x16 : S1x16.Broadcasts S512x16
  inb_S2x16_S2x16_0_0 : ∀ a, (![0, 0] : Fin 2 → Nat) a + S2x16.size a ≤ S2x16.size a
  h_S2x16 : 0 < S2x16.numel
  transposes_S2x16_p1_0_S16x2 : S2x16.Transposes [1, 0] S16x2
  inb_S2_S2_0 : ∀ a, (![0] : Fin 1 → Nat) a + S2.size a ≤ S2.size a
  h_S2 : 0 < S2.numel
  shapeCasts_S2_S1x2 : S2.ShapeCasts S1x2
  broadcasts_S1x2_S512x2 : S1x2.Broadcasts S512x2
  reduces_S512x2_S512 : S512x2.Reduces [1] S512
  shapeCasts_S512_S512x1 : S512.ShapeCasts S512x1
  broadcasts_S512x1_S512x2 : S512x1.Broadcasts S512x2
  inb_S512x2_S512x2_0_0 : ∀ a, (![0, 0] : Fin 2 → Nat) a + S512x2.size a ≤ S512x2.size a
  h_S512x2 : 0 < S512x2.numel
  gather_S50000x64_S800000x1_S800000x64_1_0_n_n_0_1_164_wf : GatherDims.WF S50000x64 S800000x1 S800000x64 [1] [0] [] [0] [] 1 ![1, 64]
  dot_S6400x64_S64x4_S6400x4_1_0_0_1_n_n_wf : DotDims.WF S6400x64 S64x4 S6400x4 [1] [0] [0] [1] [] []
  dot_S6400x8_S8x4_S6400x4_1_0_0_1_n_n_wf : DotDims.WF S6400x8 S8x4 S6400x4 [1] [0] [0] [1] [] []
  scatter_S50000x4_S800000x1_S800000x4_1_0_0_1_wf : ScatterDims.WF S50000x4 S800000x1 S800000x4 [1] [0] [0] 1
  dot_S2000x64_S64x64_S2000x64_1_0_0_1_n_n_wf : DotDims.WF S2000x64 S64x64 S2000x64 [1] [0] [0] [1] [] []
  dot_S2000x4_S4x64_S2000x64_1_0_0_1_n_n_wf : DotDims.WF S2000x4 S4x64 S2000x64 [1] [0] [0] [1] [] []
  dot_S2000x512_S2000x64_S512x64_0_0_1_1_n_n_wf : DotDims.WF S2000x512 S2000x64 S512x64 [0] [0] [1] [1] [] []
  dot_S512x64_S64x16_S512x16_1_0_0_1_n_n_wf : DotDims.WF S512x64 S64x16 S512x16 [1] [0] [0] [1] [] []
  dot_S512x16_S16x2_S512x2_1_0_0_1_n_n_wf : DotDims.WF S512x16 S16x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .f32 = 32 ∨ (Rect.block (s := S800000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .f32 = 32 ∨ (Rect.block (s := S800000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x8.size a ≤ S800000x8.size a
  hwx0_2 : ∀ i : grid0.Coords, EltTy.bits .f32 = 32 ∨ (Rect.block (s := S800000x8) S6400x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64.size a ≤ S4x64.size a
  hwx0_4 : ∀ i : grid0.Coords, EltTy.bits .f32 = 32 ∨ (Rect.block (s := S4x64) S4x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x8.size a ≤ S4x8.size a
  hwx0_5 : ∀ i : grid0.Coords, EltTy.bits .f32 = 32 ∨ (Rect.block (s := S4x8) S4x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x4.size a ≤ S800000x4.size a
  hwx0_7 : ∀ i : grid0.Coords, EltTy.bits .f32 = 32 ∨ (Rect.block (s := S800000x4) S6400x4.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x4.size a ≤ S50000x4.size a
  hwx1_1 : ∀ i : grid1.Coords, EltTy.bits .f32 = 32 ∨ (Rect.block (s := S50000x4) S2000x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x4.size a ≤ S64x4.size a
  hwx1_3 : ∀ i : grid1.Coords, EltTy.bits .f32 = 32 ∨ (Rect.block (s := S64x4) S64x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S800000x64.size a
  hwx2_0 : ∀ i : grid2.Coords, EltTy.bits .f32 = 32 ∨ (Rect.block (s := S800000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x64.size a ≤ S800000x64.size a
  hwx2_1 : ∀ i : grid2.Coords, EltTy.bits .f32 = 32 ∨ (Rect.block (s := S800000x64) S6400x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x8.size a ≤ S800000x8.size a
  hwx2_2 : ∀ i : grid2.Coords, EltTy.bits .f32 = 32 ∨ (Rect.block (s := S800000x8) S6400x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x64.size a ≤ S4x64.size a
  hwx2_3 : ∀ i : grid2.Coords, EltTy.bits .f32 = 32 ∨ (Rect.block (s := S4x64) S4x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x64.size a ≤ S4x64.size a
  hwx2_4 : ∀ i : grid2.Coords, EltTy.bits .f32 = 32 ∨ (Rect.block (s := S4x64) S4x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4x8.size a ≤ S4x8.size a
  hwx2_5 : ∀ i : grid2.Coords, EltTy.bits .f32 = 32 ∨ (Rect.block (s := S4x8) S4x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S4.size a ≤ S4.size a
  hwx2_6 : ∀ i : grid2.Coords, EltTy.bits .f32 = 32 ∨ (Rect.block (s := S4) S4.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6400x4.size a ≤ S800000x4.size a
  hwx2_7 : ∀ i : grid2.Coords, EltTy.bits .f32 = 32 ∨ (Rect.block (s := S800000x4) S6400x4.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x4.size a ≤ S50000x4.size a
  hwx3_1 : ∀ i : grid3.Coords, EltTy.bits .f32 = 32 ∨ (Rect.block (s := S50000x4) S2000x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x4.size a ≤ S64x4.size a
  hwx3_3 : ∀ i : grid3.Coords, EltTy.bits .f32 = 32 ∨ (Rect.block (s := S64x4) S64x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .i32 = 32 ∨ (Rect.block (s := S50000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x64.size a ≤ S16x64.size a
  hwx4_2 : ∀ i : grid4.Coords, EltTy.bits .f32 = 32 ∨ (Rect.block (s := S16x64) S16x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16.size a ≤ S16.size a
  hwx4_3 : ∀ i : grid4.Coords, EltTy.bits .f32 = 32 ∨ (Rect.block (s := S16) S16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S2x16.size a ≤ S2x16.size a
  hwx4_4 : ∀ i : grid4.Coords, EltTy.bits .f32 = 32 ∨ (Rect.block (s := S2x16) S2x16.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2.size a ≤ S2.size a
  hwx4_5 : ∀ i : grid4.Coords, EltTy.bits .f32 = 32 ∨ (Rect.block (s := S2) S2.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x2.size a ≤ S512x2.size a
  hwx4_6 : ∀ i : grid4.Coords, EltTy.bits .f32 = 32 ∨ (Rect.block (s := S512x2) S512x2.size (cc4_transform_6 i) (hinb4_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x4_S6400x4_1_0_0_1_n_n : DotDims S6400x64 S64x4 S6400x4 where
  lhsContracting := [1]
  rhsContracting := [0]
  lhsNonContracting := [0]
  rhsNonContracting := [1]
  lhsBatch := []
  rhsBatch := []
  wf := dot_S6400x64_S64x4_S6400x4_1_0_0_1_n_n_wf
def dot_S6400x8_S8x4_S6400x4_1_0_0_1_n_n : DotDims S6400x8 S8x4 S6400x4 where
  lhsContracting := [1]
  rhsContracting := [0]
  lhsNonContracting := [0]
  rhsNonContracting := [1]
  lhsBatch := []
  rhsBatch := []
  wf := dot_S6400x8_S8x4_S6400x4_1_0_0_1_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x4_S4x64_S2000x64_1_0_0_1_n_n : DotDims S2000x4 S4x64 S2000x64 where
  lhsContracting := [1]
  rhsContracting := [0]
  lhsNonContracting := [0]
  rhsNonContracting := [1]
  lhsBatch := []
  rhsBatch := []
  wf := dot_S2000x4_S4x64_S2000x64_1_0_0_1_n_n_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S512x16_S16x2_S512x2_1_0_0_1_n_n : DotDims S512x16 S16x2 S512x2 where
  lhsContracting := [1]
  rhsContracting := [0]
  lhsNonContracting := [0]
  rhsNonContracting := [1]
  lhsBatch := []
  rhsBatch := []
  wf := dot_S512x16_S16x2_S512x2_1_0_0_1_n_n_wf

abbrev win0_0 : Pipeline.Window sig grid0 :=
  Pipeline.Window.ofSpec (Memref.whole main_v15) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S4x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S6400x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S64x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v22) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S6400x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S6400x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S4x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S4x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S4x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg9) S4.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v24) S6400x4.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v21) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S2000x4.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v14) S64x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v28) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v28) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S16x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S2x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg15) S2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v29) S512x2.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S800000x8 : Shape := ⟨2, ![800000, 8]⟩
abbrev S50000 : Shape := ⟨1, ![50000]⟩
abbrev S4x136 : Shape := ⟨2, ![4, 136]⟩
abbrev S4 : Shape := ⟨1, ![4]⟩
abbrev S64x68 : Shape := ⟨2, ![64, 68]⟩
abbrev S64 : Shape := ⟨1, ![64]⟩
abbrev S16x64 : Shape := ⟨2, ![16, 64]⟩
abbrev S16 : Shape := ⟨1, ![16]⟩
abbrev S2x16 : Shape := ⟨2, ![2, 16]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x136 : Shape := ⟨2, ![800000, 136]⟩
abbrev S136x4 : Shape := ⟨2, ![136, 4]⟩
abbrev S800000x4 : Shape := ⟨2, ![800000, 4]⟩
abbrev S1x4 : Shape := ⟨2, ![1, 4]⟩
abbrev S50000x4 : Shape := ⟨2, ![50000, 4]⟩
abbrev S50000x68 : Shape := ⟨2, ![50000, 68]⟩
abbrev S68x64 : Shape := ⟨2, ![68, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S64x16 : Shape := ⟨2, ![64, 16]⟩
abbrev S512x16 : Shape := ⟨2, ![512, 16]⟩
abbrev S1x16 : Shape := ⟨2, ![1, 16]⟩
abbrev S16x2 : Shape := ⟨2, ![16, 2]⟩
abbrev S512x2 : Shape := ⟨2, ![512, 2]⟩
abbrev S1x2 : Shape := ⟨2, ![1, 2]⟩

abbrev nBuf : Space → Nat
  | .hbm => 184
  | .vmem => 0
  | .smem => 0
  | _ => 0

abbrev hbmTy0_0 (i : Nat) : BufTy := match i % 128 with
  | 0 => ⟨S50000x64, .f32⟩
  | 1 => ⟨S2x800000, .i32⟩
  | 2 => ⟨S800000x8, .f32⟩
  | 3 => ⟨S50000, .i32⟩
  | 4 => ⟨S4x136, .f32⟩
  | 5 => ⟨S4, .f32⟩
  | 6 => ⟨S64x68, .f32⟩
  | 7 => ⟨S64, .f32⟩
  | 8 => ⟨S4x136, .f32⟩
  | 9 => ⟨S4, .f32⟩
  | 10 => ⟨S64x68, .f32⟩
  | 11 => ⟨S64, .f32⟩
  | 12 => ⟨S16x64, .f32⟩
  | 13 => ⟨S16, .f32⟩
  | 14 => ⟨S2x16, .f32⟩
  | 15 => ⟨S2, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S800000x136, .f32⟩
  | 39 => ⟨S136x4, .f32⟩
  | 40 => ⟨S800000x4, .f32⟩
  | 41 => ⟨S1x4, .f32⟩
  | 42 => ⟨S800000x4, .f32⟩
  | 43 => ⟨S800000x4, .f32⟩
  | 44 => ⟨S_, .f32⟩
  | 45 => ⟨S_, .f32⟩
  | 46 => ⟨S800000x4, .f32⟩
  | 47 => ⟨S800000x4, .i1⟩
  | 48 => ⟨S_, .f32⟩
  | 49 => ⟨S800000x4, .f32⟩
  | 50 => ⟨S800000x4, .f32⟩
  | 51 => ⟨S800000x4, .f32⟩
  | 52 => ⟨S_, .f32⟩
  | 53 => ⟨S800000, .f32⟩
  | 54 => ⟨S_, .f32⟩
  | 55 => ⟨S800000, .f32⟩
  | 56 => ⟨S800000, .f32⟩
  | 57 => ⟨S800000x1, .f32⟩
  | 58 => ⟨S800000x4, .f32⟩
  | 59 => ⟨S800000x4, .f32⟩
  | 60 => ⟨S800000x4, .f32⟩
  | 61 => ⟨S_, .f32⟩
  | 62 => ⟨S800000, .f32⟩
  | 63 => ⟨S800000x1, .f32⟩
  | 64 => ⟨S800000x4, .f32⟩
  | 65 => ⟨S800000x4, .f32⟩
  | 66 => ⟨S_, .f32⟩
  | 67 => ⟨S50000x4, .f32⟩
  | 68 => ⟨S800000x1, .i32⟩
  | 69 => ⟨S50000x4, .f32⟩
  | 70 => ⟨S50000x68, .f32⟩
  | 71 => ⟨S68x64, .f32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S800000x136, .f32⟩
  | 98 => ⟨S136x4, .f32⟩
  | 99 => ⟨S800000x4, .f32⟩
  | 100 => ⟨S1x4, .f32⟩
  | 101 => ⟨S800000x4, .f32⟩
  | 102 => ⟨S800000x4, .f32⟩
  | 103 => ⟨S_, .f32⟩
  | 104 => ⟨S_, .f32⟩
  | 105 => ⟨S800000x4, .f32⟩
  | 106 => ⟨S800000x4, .i1⟩
  | 107 => ⟨S_, .f32⟩
  | 108 => ⟨S800000x4, .f32⟩
  | 109 => ⟨S800000x4, .f32⟩
  | 110 => ⟨S800000x4, .f32⟩
  | 111 => ⟨S_, .f32⟩
  | 112 => ⟨S800000, .f32⟩
  | 113 => ⟨S_, .f32⟩
  | 114 => ⟨S800000, .f32⟩
  | 115 => ⟨S800000, .f32⟩
  | 116 => ⟨S800000x1, .f32⟩
  | 117 => ⟨S800000x4, .f32⟩
  | 118 => ⟨S800000x4, .f32⟩
  | 119 => ⟨S800000x4, .f32⟩
  | 120 => ⟨S_, .f32⟩
  | 121 => ⟨S800000, .f32⟩
  | 122 => ⟨S800000x1, .f32⟩
  | 123 => ⟨S800000x4, .f32⟩
  | 124 => ⟨S800000x4, .f32⟩
  | 125 => ⟨S_, .f32⟩
  | 126 => ⟨S50000x4, .f32⟩
  | 127 => ⟨S800000x1, .i32⟩
  | _ => ⟨S50000x64, .f32⟩

abbrev hbmTy0_1 (i : Nat) : BufTy := match i % 128 with
  | 0 => ⟨S50000x4, .f32⟩
  | 1 => ⟨S50000x68, .f32⟩
  | 2 => ⟨S68x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S_, .f32⟩
  | 11 => ⟨S512x64, .f32⟩
  | 12 => ⟨S50000x1, .i32⟩
  | 13 => ⟨S512x64, .f32⟩
  | 14 => ⟨S_, .f32⟩
  | 15 => ⟨S50000, .f32⟩
  | 16 => ⟨S_, .f32⟩
  | 17 => ⟨S512, .f32⟩
  | 18 => ⟨S50000x1, .i32⟩
  | 19 => ⟨S512, .f32⟩
  | 20 => ⟨S_, .f32⟩
  | 21 => ⟨S512, .f32⟩
  | 22 => ⟨S512, .f32⟩
  | 23 => ⟨S512x1, .f32⟩
  | 24 => ⟨S512x64, .f32⟩
  | 25 => ⟨S512x64, .f32⟩
  | 26 => ⟨S64x16, .f32⟩
  | 27 => ⟨S512x16, .f32⟩
  | 28 => ⟨S1x16, .f32⟩
  | 29 => ⟨S512x16, .f32⟩
  | 30 => ⟨S512x16, .f32⟩
  | 31 => ⟨S_, .f32⟩
  | 32 => ⟨S512x16, .f32⟩
  | 33 => ⟨S512x16, .f32⟩
  | 34 => ⟨S16x2, .f32⟩
  | 35 => ⟨S512x2, .f32⟩
  | 36 => ⟨S1x2, .f32⟩
  | 37 => ⟨S512x2, .f32⟩
  | 38 => ⟨S512x2, .f32⟩
  | 39 => ⟨S_, .f32⟩
  | 40 => ⟨S512x2, .f32⟩
  | 41 => ⟨S512x2, .f32⟩
  | 42 => ⟨S_, .f32⟩
  | 43 => ⟨S512, .f32⟩
  | 44 => ⟨S_, .f32⟩
  | 45 => ⟨S512, .f32⟩
  | 46 => ⟨S512, .f32⟩
  | 47 => ⟨S512x1, .f32⟩
  | 48 => ⟨S512x2, .f32⟩
  | 49 => ⟨S512x2, .f32⟩
  | 50 => ⟨S512x2, .f32⟩
  | 51 => ⟨S_, .f32⟩
  | 52 => ⟨S512, .f32⟩
  | 53 => ⟨S512x1, .f32⟩
  | 54 => ⟨S512x2, .f32⟩
  | 55 => ⟨S512x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call1_cst : Ref sig .tc := ⟨.hbm, 76, rfl⟩
abbrev main_call1_v0 : Ref sig .tc := ⟨.hbm, 77, rfl⟩
abbrev main_v45 : Ref sig .tc := ⟨.hbm, 78, rfl⟩
abbrev main_c_7 : Ref sig .tc := ⟨.hbm, 79, rfl⟩
abbrev main_v46 : Ref sig .tc := ⟨.hbm, 80, rfl⟩
abbrev main_v47 : Ref sig .tc := ⟨.hbm, 81, rfl⟩
abbrev main_c_8 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_9 : Ref sig .tc := ⟨.hbm, 88, rfl⟩
abbrev main_v53 : Ref sig .tc := ⟨.hbm, 89, rfl⟩
abbrev main_v54 : Ref sig .tc := ⟨.hbm, 90, rfl⟩
abbrev main_c_10 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_11 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v66 : Ref sig .tc := ⟨.hbm, 110, rfl⟩
abbrev main_cst_12 : Ref sig .tc := ⟨.hbm, 111, rfl⟩
abbrev main_v67 : Ref sig .tc := ⟨.hbm, 112, rfl⟩
abbrev main_cst_13 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_14 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_15 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_call3_cst : Ref sig .tc := ⟨.hbm, 135, rfl⟩
abbrev main_call3_v0 : Ref sig .tc := ⟨.hbm, 136, rfl⟩
abbrev main_v87 : Ref sig .tc := ⟨.hbm, 137, rfl⟩
abbrev main_cst_16 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_17 : Ref sig .tc := ⟨.hbm, 142, rfl⟩
abbrev main_v91 : Ref sig .tc := ⟨.hbm, 143, rfl⟩
abbrev main_cst_18 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_19 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_call4_cst : Ref sig .tc := ⟨.hbm, 159, rfl⟩
abbrev main_call4_v0 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_call5_cst : Ref sig .tc := ⟨.hbm, 167, rfl⟩
abbrev main_call5_v0 : Ref sig .tc := ⟨.hbm, 168, rfl⟩
abbrev main_v111 : Ref sig .tc := ⟨.hbm, 169, rfl⟩
abbrev main_cst_20 : Ref sig .tc := ⟨.hbm, 170, rfl⟩
abbrev main_v112 : Ref sig .tc := ⟨.hbm, 171, rfl⟩
abbrev main_cst_21 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_22 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x8_S800000x136_d1 : Shape.Concatenates [S800000x64, S800000x64, S800000x8] S800000x136 1
  transposes_S4x136_S136x4_1_0 : S4x136.Transposes [1, 0] S136x4
  bcast_S4_S1x4_1 : S4.BroadcastsInDim S1x4 (![1] : Fin 1 → Fin S1x4.rank)
  bcast_S1x4_S800000x4_0_1 : S1x4.BroadcastsInDim S800000x4 (![0, 1] : Fin 2 → Fin S800000x4.rank)
  bcast_S_S800000x4 : S_.BroadcastsInDim S800000x4 (![] : Fin 0 → Fin S800000x4.rank)
  reducesTo_S800000x4_S800000_d1 : S800000x4.ReducesTo [1] S800000
  h_S_ : 0 < S_.numel
  bcast_S800000x1_S800000x4_0_1 : S800000x1.BroadcastsInDim S800000x4 (![0, 1] : Fin 2 → Fin S800000x4.rank)
  bcast_S_S50000x4 : S_.BroadcastsInDim S50000x4 (![] : Fin 0 → Fin S50000x4.rank)
  concatenates_S50000x64_S50000x4_S50000x68_d1 : Shape.Concatenates [S50000x64, S50000x4] S50000x68 1
  transposes_S64x68_S68x64_1_0 : S64x68.Transposes [1, 0] S68x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S16x64_S64x16_1_0 : S16x64.Transposes [1, 0] S64x16
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  transposes_S2x16_S16x2_1_0 : S2x16.Transposes [1, 0] S16x2
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  bcast_S_S512x2 : S_.BroadcastsInDim S512x2 (![] : Fin 0 → Fin S512x2.rank)
  reducesTo_S512x2_S512_d1 : S512x2.ReducesTo [1] S512
  bcast_S512x1_S512x2_0_1 : S512x1.BroadcastsInDim S512x2 (![0, 1] : Fin 2 → Fin S512x2.rank)
  gather_S50000x64_S800000x1_S800000x64_1_0_n_n_0_1_164_wf : GatherDims.WF S50000x64 S800000x1 S800000x64 [1] [0] [] [0] [] 1 ![1, 64]
  dot_S800000x136_S136x4_S800000x4_1_0_0_1_n_n_wf : DotDims.WF S800000x136 S136x4 S800000x4 [1] [0] [0] [1] [] []
  scatter_S50000x4_S800000x1_S800000x4_1_0_0_1_wf : ScatterDims.WF S50000x4 S800000x1 S800000x4 [1] [0] [0] 1
  dot_S50000x68_S68x64_S50000x64_1_0_0_1_n_n_wf : DotDims.WF S50000x68 S68x64 S50000x64 [1] [0] [0] [1] [] []
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x16_S512x16_1_0_0_1_n_n_wf : DotDims.WF S512x64 S64x16 S512x16 [1] [0] [0] [1] [] []
  dot_S512x16_S16x2_S512x2_1_0_0_1_n_n_wf : DotDims.WF S512x16 S16x2 S512x2 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x136_S136x4_S800000x4_1_0_0_1_n_n : DotDims S800000x136 S136x4 S800000x4 where
  lhsContracting := [1]
  rhsContracting := [0]
  lhsNonContracting := [0]
  rhsNonContracting := [1]
  lhsBatch := []
  rhsBatch := []
  wf := dot_S800000x136_S136x4_S800000x4_1_0_0_1_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def dot_S50000x68_S68x64_S50000x64_1_0_0_1_n_n : DotDims S50000x68 S68x64 S50000x64 where
  lhsContracting := [1]
  rhsContracting := [0]
  lhsNonContracting := [0]
  rhsNonContracting := [1]
  lhsBatch := []
  rhsBatch := []
  wf := dot_S50000x68_S68x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S512x16_S16x2_S512x2_1_0_0_1_n_n : DotDims S512x16 S16x2 S512x2 where
  lhsContracting := [1]
  rhsContracting := [0]
  lhsNonContracting := [0]
  rhsNonContracting := [1]
  lhsBatch := []
  rhsBatch := []
  wf := dot_S512x16_S16x2_S512x2_1_0_0_1_n_n_wf

class Facts : Prop extends Facts₀ where

variable [Facts]
-- ==== Proof.K.Region0.lean ====
import proofs.«409757_j13056700579878_4_alg».proof.Proof.Gen.Kernel.Launch
import proofs.«409757_j13056700579878_4_alg».proof.Proof.Gen.Kernel.Skeleton
import proofs.«409757_j13056700579878_4_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay1 (iblk0 V c 0 t) (iblk0 V c 3 t) (iblk0 V c 1 t) (iblk0 V c 4 t) (iblk0 V c 2 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := rfl

theorem Phi_eq0 (c : Dev nD) (t) : (dat0 V c).Φ t = Pipeline.ΦA spec0 c := rfl

theorem after0_out (c : Dev nD) (t : Fin cfg0.N) : (dat0 V c).after 7 t = k0_pay1 (iblk0 V c 0 t) (iblk0 V c 3 t) (iblk0 V c 1 t) (iblk0 V c 4 t) (iblk0 V c 2 t) (iblk0 V c 5 t) (iblk0 V c 6 t) := rfl

-- The body only reads its inputs: what it finds in one is what it leaves there.
theorem before0 (c : Dev nD) (w : Fin cfg0.W) (hw : w ≠ 7) (t : Fin cfg0.N) (d) : (dat0 V c).before w t d = (dat0 V c).after w t := by
  fin_cases w <;> first | exact absurd rfl hw | exact (dat0 V c).before_in_eq_fetched _ rfl (fun _ => rfl) (fun _ _ _ => rfl) (fun _ => rfl) t d

-- The kernel stores over the whole output its value of the seven inputs, each read whole.
theorem sound_kernel0 (c : Dev nD) (E : Set ℕ) (i : grid0.Coords) (arg1 arg2 : Memref sig .tc .vmem S6400x64 .f32) (arg3 : Memref sig .tc .vmem S6400x8 .f32) (arg4 arg5 : Memref sig .tc .vmem S4x64 .f32) (arg6 : Memref sig .tc .vmem S4x8 .f32) (arg7 : Memref sig .tc .vmem S4 .f32) (arg8 : Memref sig .tc .vmem S6400x4 .f32)
    (harg1 harg2 harg3 harg4 harg5 harg6 harg7 harg8 x0 x1 x2 x3 x4 x5 x6 d) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare d
        ∗ (owns c arg1 fullShare x0 -∗ owns c arg2 fullShare x1 -∗ owns c arg3 fullShare x2 -∗ owns c arg4 fullShare x3 -∗ owns c arg5 fullShare x4 -∗ owns c arg6 fullShare x5 -∗ owns c arg7 fullShare x6 -∗ owns c arg8 fullShare (k0_pay1 x0 x3 x1 x4 x2 x5 x6) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, Hk⟩
  subst_vars
  sl_exec
  sl_step
  iapply Hk $$ [H0] [H1] [H2] [H3] [H4] [H5] [H6] [H7]
  all_goals (iexists _; isplitr; swap; iassumption; ipureintro)
  iterate 7 rfl
  refine (View.read_writes_eq_canon _ _ _ fun y => ⟨_, List.mem_singleton_self _, View.mem_set_unit_zero (by decide) inb_S6400x4_S6400x4_0_0 y⟩).trans ((View.canon_unit_zero (by decide) _ _).trans ?_)
  sl_unfold_run_names
  simp (disch := decide) only [View.readAt_eq_ld, View.ld_unit_zero (S := S6400x64), View.ld_unit_zero (S := S6400x8),
    View.ld_unit_zero (S := S4x64), View.ld_unit_zero (S := S4x8), View.ld_unit_zero (S := S4)]

-- At each grid point the kernel's triple applies to the inputs' blocks; the rest is framed.
theorem body_obligation0 (c : Dev nD) : BodyObligation (dat0 (F := F) V c) (defs₀ (F := F)) Variants.none () Set.univ := fun t => by
  rw [bigSep_W0, bigSep_W0]
  simp (disch := decide) only [before0, Phi_eq0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ _ _ _ _ _ _ _ _ _)
  iframe
  iintro H0 H1 H2 H3 H4 H5 H6 H7
  iframe
  isplitl [Ho]
  iexact Ho
  iexact H7

end Cert.Kernel.Hand

end
-- ==== Proof.K.Region1.lean ====
import proofs.«409757_j13056700579878_4_alg».proof.Proof.Gen.Kernel.Launch
import proofs.«409757_j13056700579878_4_alg».proof.Proof.Gen.Kernel.Skeleton
import proofs.«409757_j13056700579878_4_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- each input is read whole, and the output is overwritten whole by the payload of the inputs
theorem sound_kernel1 {c : Dev nD} {E : Set ℕ} {i : grid1.Coords}
    {arg1 : Memref sig .tc .vmem S2000x64 .f32} {harg1 : arg1.IsWhole} {arg2 : Memref sig .tc .vmem S2000x4 .f32} {harg2 : arg2.IsWhole}
    {arg3 : Memref sig .tc .vmem S64x64 .f32} {harg3 : arg3.IsWhole} {arg4 : Memref sig .tc .vmem S64x4 .f32} {harg4 : arg4.IsWhole}
    {arg5 : Memref sig .tc .vmem S64 .f32} {harg5 : arg5.IsWhole} {arg6 : Memref sig .tc .vmem S2000x64 .f32} {harg6 : arg6.IsWhole}
    {h : Vec F S2000x64 .f32} {agg : Vec F S2000x4 .f32} {wh : Vec F S64x64 .f32} {wa : Vec F S64x4 .f32} {b : Vec F S64 .f32}
    {X : Vec F S2000x64 .f32 → Vec F S2000x64 .f32} {P Q : sProp 𝕄} :
    iprop(P ∗ Q ∗ (∃ _ : Vec F S2000x64 .f32, owns c arg1 fullShare h) ∗ (∃ _ : Vec F S2000x4 .f32, owns c arg2 fullShare agg)
        ∗ (∃ _ : Vec F S64x64 .f32, owns c arg3 fullShare wh) ∗ (∃ _ : Vec F S64x4 .f32, owns c arg4 fullShare wa)
        ∗ (∃ _ : Vec F S64 .f32, owns c arg5 fullShare b) ∗ (∃ d, owns c arg6 fullShare (X d)))
      ⊢ wp frame (wpE (defs₀ (F := F)) Variants.none c none) E (cc1_kernel i arg1 harg1 arg2 harg2 arg3 harg3 arg4 harg4 arg5 harg5 arg6 harg6) fun _ =>
        iprop(P ∗ Q ∗ owns c arg1 fullShare h ∗ owns c arg2 fullShare agg ∗ owns c arg3 fullShare wh ∗ owns c arg4 fullShare wa
          ∗ owns c arg5 fullShare b ∗ owns c arg6 fullShare (k1_pay1 h wh agg wa b)) := by
  simp only [cc1_kernel_eq_skeleton]; unfold cc1_kernel_skel owns
  iintro ⟨HP, HQ, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  sl_exec
  sl_step
  iframe HP HQ
  isplitl [H1]; · iexists f1; iframe %hf1 H1
  isplitl [H2]; · iexists f2; iframe %hf2 H2
  isplitl [H3]; · iexists f3; iframe %hf3 H3
  isplitl [H4]; · iexists f4; iframe %hf4 H4
  isplitl [H5]; · iexists f5; iframe %hf5 H5
  iexists _; iframe H6
  subst hf1 hf2 hf3 hf4 hf5
  ipureintro
  exact (View.read_writes_eq_canon _ _ _ fun y => ⟨_, List.mem_singleton_self _, View.mem_set_unit_zero (by decide) inb_S2000x64_S2000x64_0_0 y⟩).trans
    ((View.canon_unit_zero (by decide) _ _).trans (by congr 1 <;> exact View.ld_unit_zero (by decide) _ _))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 2 t) (iblk1 V c 1 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi_eq1 (c : Dev nD) (t) : (dat1 V c).Φ t = Pipeline.ΦA spec1 c := by
  dsimp only [dat1]

theorem after1_out (c : Dev nD) (t : Fin cfg1.N) :
    (dat1 V c).after 5 t = k1_pay1 (iblk1 V c 0 t) (iblk1 V c 2 t) (iblk1 V c 1 t) (iblk1 V c 3 t) (iblk1 V c 4 t) := by
  dsimp only [dat1]

theorem before1 (c : Dev nD) (t : Fin cfg1.N) :
    (∀ d, (dat1 V c).before 0 t d = iblk1 V c 0 t) ∧ (∀ d, (dat1 V c).before 1 t d = iblk1 V c 1 t) ∧
    (∀ d, (dat1 V c).before 2 t d = iblk1 V c 2 t) ∧ (∀ d, (dat1 V c).before 3 t d = iblk1 V c 3 t) ∧
    ∀ d, (dat1 V c).before 4 t d = iblk1 V c 4 t := by
  refine ⟨?_, ?_, ?_, ?_, ?_⟩ <;> exact Dat.before_in_eq_fetched _ _ rfl (fun _ => rfl) (fun _ _ _ => rfl) (fun _ => rfl) t

theorem body_obligation1 (c : Dev nD) : BodyObligation (dat1 (F := F) V c) (defs₀ (F := F)) Variants.none () Set.univ := fun t => by
  rw [bigSep_W1, bigSep_W1]
  simp only [before1 V c t]
  show _ ⊢ wp _ _ _ (bodyAt1 t) _
  exact sound_kernel1

end Cert.Kernel.Hand

end
-- ==== Proof.K.Region2.lean ====
import proofs.«409757_j13056700579878_4_alg».proof.Proof.Gen.Kernel.Launch
import proofs.«409757_j13056700579878_4_alg».proof.Proof.Gen.Kernel.Skeleton
import proofs.«409757_j13056700579878_4_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => k2_pay1 (iblk2 V c 0 t) (iblk2 V c 3 t) (iblk2 V c 1 t) (iblk2 V c 4 t) (iblk2 V c 2 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem Phi_eq2 (c : Dev nD) (t) : (dat2 V c).Φ t = Pipeline.ΦA spec2 c := rfl

theorem after2_out (c : Dev nD) (t : Fin cfg2.N) : (dat2 V c).after 7 t = k2_pay1 (iblk2 V c 0 t) (iblk2 V c 3 t) (iblk2 V c 1 t) (iblk2 V c 4 t) (iblk2 V c 2 t) (iblk2 V c 5 t) (iblk2 V c 6 t) := rfl

-- The body only reads its inputs: what it finds in one is what it leaves there.
theorem before2 (c : Dev nD) (w : Fin cfg2.W) (hw : w ≠ 7) (t : Fin cfg2.N) (d) : (dat2 V c).before w t d = (dat2 V c).after w t := by
  fin_cases w <;> first | exact absurd rfl hw | exact (dat2 V c).before_in_eq_fetched _ rfl (fun _ => rfl) (fun _ _ _ => rfl) (fun _ => rfl) t d

-- The kernel stores over the whole output its value of the seven inputs, each read whole.
theorem sound_kernel2 (c : Dev nD) (E : Set ℕ) (i : grid2.Coords) (arg1 arg2 : Memref sig .tc .vmem S6400x64 .f32) (arg3 : Memref sig .tc .vmem S6400x8 .f32) (arg4 arg5 : Memref sig .tc .vmem S4x64 .f32) (arg6 : Memref sig .tc .vmem S4x8 .f32) (arg7 : Memref sig .tc .vmem S4 .f32) (arg8 : Memref sig .tc .vmem S6400x4 .f32)
    (harg1 harg2 harg3 harg4 harg5 harg6 harg7 harg8 x0 x1 x2 x3 x4 x5 x6 d) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare d
        ∗ (owns c arg1 fullShare x0 -∗ owns c arg2 fullShare x1 -∗ owns c arg3 fullShare x2 -∗ owns c arg4 fullShare x3 -∗ owns c arg5 fullShare x4 -∗ owns c arg6 fullShare x5 -∗ owns c arg7 fullShare x6 -∗ owns c arg8 fullShare (k2_pay1 x0 x3 x1 x4 x2 x5 x6) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, Hk⟩
  subst_vars
  sl_exec
  sl_step
  iapply Hk $$ [H0] [H1] [H2] [H3] [H4] [H5] [H6] [H7]
  all_goals (iexists _; isplitr; swap; iassumption; ipureintro)
  iterate 7 rfl
  refine (View.read_writes_eq_canon _ _ _ fun y => ⟨_, List.mem_singleton_self _, View.mem_set_unit_zero (by decide) inb_S6400x4_S6400x4_0_0 y⟩).trans ((View.canon_unit_zero (by decide) _ _).trans ?_)
  sl_unfold_run_names
  simp (disch := decide) only [View.readAt_eq_ld, View.ld_unit_zero (S := S6400x64), View.ld_unit_zero (S := S6400x8),
    View.ld_unit_zero (S := S4x64), View.ld_unit_zero (S := S4x8), View.ld_unit_zero (S := S4)]

-- At each grid point the kernel's triple applies to the inputs' blocks; the rest is framed.
theorem body_obligation2 (c : Dev nD) : BodyObligation (dat2 (F := F) V c) (defs₀ (F := F)) Variants.none () Set.univ := fun t => by
  rw [bigSep_W2, bigSep_W2]
  simp (disch := decide) only [before2, Phi_eq2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ _ _ _ _ _ _ _ _ _)
  iframe
  iintro H0 H1 H2 H3 H4 H5 H6 H7
  iframe
  isplitl [Ho]
  iexact Ho
  iexact H7

end Cert.Kernel.Hand

end
-- ==== Proof.K.Region3.lean ====
import proofs.«409757_j13056700579878_4_alg».proof.Proof.Gen.Kernel.Launch
import proofs.«409757_j13056700579878_4_alg».proof.Proof.Gen.Kernel.Skeleton
import proofs.«409757_j13056700579878_4_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- each input is read whole, and the output is overwritten whole by the payload of the inputs
theorem sound_kernel3 {c : Dev nD} {E : Set ℕ} {i : grid3.Coords}
    {arg1 : Memref sig .tc .vmem S2000x64 .f32} {harg1 : arg1.IsWhole} {arg2 : Memref sig .tc .vmem S2000x4 .f32} {harg2 : arg2.IsWhole}
    {arg3 : Memref sig .tc .vmem S64x64 .f32} {harg3 : arg3.IsWhole} {arg4 : Memref sig .tc .vmem S64x4 .f32} {harg4 : arg4.IsWhole}
    {arg5 : Memref sig .tc .vmem S64 .f32} {harg5 : arg5.IsWhole} {arg6 : Memref sig .tc .vmem S2000x64 .f32} {harg6 : arg6.IsWhole}
    {h : Vec F S2000x64 .f32} {agg : Vec F S2000x4 .f32} {wh : Vec F S64x64 .f32} {wa : Vec F S64x4 .f32} {b : Vec F S64 .f32}
    {X : Vec F S2000x64 .f32 → Vec F S2000x64 .f32} {P Q : sProp 𝕄} :
    iprop(P ∗ Q ∗ (∃ _ : Vec F S2000x64 .f32, owns c arg1 fullShare h) ∗ (∃ _ : Vec F S2000x4 .f32, owns c arg2 fullShare agg)
        ∗ (∃ _ : Vec F S64x64 .f32, owns c arg3 fullShare wh) ∗ (∃ _ : Vec F S64x4 .f32, owns c arg4 fullShare wa)
        ∗ (∃ _ : Vec F S64 .f32, owns c arg5 fullShare b) ∗ (∃ d, owns c arg6 fullShare (X d)))
      ⊢ wp frame (wpE (defs₀ (F := F)) Variants.none c none) E (cc3_kernel i arg1 harg1 arg2 harg2 arg3 harg3 arg4 harg4 arg5 harg5 arg6 harg6) fun _ =>
        iprop(P ∗ Q ∗ owns c arg1 fullShare h ∗ owns c arg2 fullShare agg ∗ owns c arg3 fullShare wh ∗ owns c arg4 fullShare wa
          ∗ owns c arg5 fullShare b ∗ owns c arg6 fullShare (k3_pay1 h wh agg wa b)) := by
  simp only [cc3_kernel_eq_skeleton]; unfold cc3_kernel_skel owns
  iintro ⟨HP, HQ, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  sl_exec
  sl_step
  iframe HP HQ
  isplitl [H1]; · iexists f1; iframe %hf1 H1
  isplitl [H2]; · iexists f2; iframe %hf2 H2
  isplitl [H3]; · iexists f3; iframe %hf3 H3
  isplitl [H4]; · iexists f4; iframe %hf4 H4
  isplitl [H5]; · iexists f5; iframe %hf5 H5
  iexists _; iframe H6
  subst hf1 hf2 hf3 hf4 hf5
  ipureintro
  exact (View.read_writes_eq_canon _ _ _ fun y => ⟨_, List.mem_singleton_self _, View.mem_set_unit_zero (by decide) inb_S2000x64_S2000x64_0_0 y⟩).trans
    ((View.canon_unit_zero (by decide) _ _).trans (by congr 1 <;> exact View.ld_unit_zero (by decide) _ _))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (iblk3 V c 0 t) (iblk3 V c 2 t) (iblk3 V c 1 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem Phi_eq3 (c : Dev nD) (t) : (dat3 V c).Φ t = Pipeline.ΦA spec3 c := by
  dsimp only [dat3]

theorem after3_out (c : Dev nD) (t : Fin cfg3.N) :
    (dat3 V c).after 5 t = k3_pay1 (iblk3 V c 0 t) (iblk3 V c 2 t) (iblk3 V c 1 t) (iblk3 V c 3 t) (iblk3 V c 4 t) := by
  dsimp only [dat3]

theorem before3 (c : Dev nD) (t : Fin cfg3.N) :
    (∀ d, (dat3 V c).before 0 t d = iblk3 V c 0 t) ∧ (∀ d, (dat3 V c).before 1 t d = iblk3 V c 1 t) ∧
    (∀ d, (dat3 V c).before 2 t d = iblk3 V c 2 t) ∧ (∀ d, (dat3 V c).before 3 t d = iblk3 V c 3 t) ∧
    ∀ d, (dat3 V c).before 4 t d = iblk3 V c 4 t := by
  refine ⟨?_, ?_, ?_, ?_, ?_⟩ <;> exact Dat.before_in_eq_fetched _ _ rfl (fun _ => rfl) (fun _ _ _ => rfl) (fun _ => rfl) t

theorem body_obligation3 (c : Dev nD) : BodyObligation (dat3 (F := F) V c) (defs₀ (F := F)) Variants.none () Set.univ := fun t => by
  rw [bigSep_W3, bigSep_W3]
  simp only [before3 V c t]
  show _ ⊢ wp _ _ _ (bodyAt3 t) _
  exact sound_kernel3

end Cert.Kernel.Hand

end
-- ==== Proof.K.Region4.lean ====
import proofs.«409757_j13056700579878_4_alg».proof.Proof.Gen.Kernel.Launch
import proofs.«409757_j13056700579878_4_alg».proof.Proof.Gen.Kernel.Skeleton
import proofs.«409757_j13056700579878_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- the per-graph sums after tile n: every tile adds its one-hot product to what the tile before left, the first to zeros
def sums4 (c : Dev nD) : (n : ℕ) → n < cfg4.N → Vec F S512x64 .f32
  | 0, h => k4_pay4 (iblk4 V c 1 ⟨0, h⟩) (iblk4 V c 0 ⟨0, h⟩) k4_pay1
  | n + 1, h => k4_pay4 (iblk4 V c 1 ⟨n + 1, h⟩) (iblk4 V c 0 ⟨n + 1, h⟩) (sums4 c n (Nat.lt_of_succ_lt h))

def cnts4 (c : Dev nD) : (n : ℕ) → n < cfg4.N → Vec F S512x1 .f32
  | 0, h => k4_pay5 (iblk4 V c 1 ⟨0, h⟩) k4_pay2
  | n + 1, h => k4_pay5 (iblk4 V c 1 ⟨n + 1, h⟩) (cnts4 c n (Nat.lt_of_succ_lt h))

abbrev sumsM : Memref sig .tc .vmem S512x64 .f32 := Memref.whole cc4_scratch0
abbrev cntsM : Memref sig .tc .vmem S512x1 .f32 := Memref.whole cc4_scratch1

def rest4 (c : Dev nD) : sProp 𝕄 :=
  iprop(Pipeline.scopedRestBut (Ix := Unit) (Name := ℕ) (U := Pipeline.UD sig nD τ) (Lvl := ℕ) (Val := Elt F) spec4 c [cc4_scratch0, cc4_scratch1]
    ∗ ∃ r, prngReg c r)

-- before the first tile the accumulators hold anything; afterwards the recursion's values after the tile before
def Phi4 (c : Dev nD) : (n : ℕ) → n ≤ cfg4.N → sProp 𝕄
  | 0, _ => Pipeline.ΦA spec4 c
  | n + 1, hn => iprop(owns (c : Thread nD τ) sumsM fullShare (sums4 V c n hn) ∗ owns (c : Thread nD τ) cntsM fullShare (cnts4 V c n hn) ∗ rest4 c)

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(owns (c : Thread nD τ) sumsM fullShare (sums4 V c n hn) ∗ owns (c : Thread nD τ) cntsM fullShare (cnts4 V c n hn) ∗ rest4 c) := rfl

theorem Phi4_pos (c : Dev nD) (n : ℕ) (h : n ≤ cfg4.N) (hz : n ≠ 0) :
    Phi4 V c n h = iprop(owns (c : Thread nD τ) sumsM fullShare (sums4 V c (n - 1) (by omega)) ∗ owns (c : Thread nD τ) cntsM fullShare (cnts4 V c (n - 1) (by omega)) ∗ rest4 c) := by
  cases n with
  | zero => exact absurd rfl hz
  | succ n => rfl

theorem PhiA4_eq (c : Dev nD) :
    (Pipeline.ΦA spec4 c : sProp 𝕄)
      = iprop(((∃ d, owns (c : Thread nD τ) sumsM fullShare d) ∗ (∃ d, owns (c : Thread nD τ) cntsM fullShare d))
          ∗ Pipeline.scopedRestBut (Ix := Unit) (Name := ℕ) (U := Pipeline.UD sig nD τ) (Lvl := ℕ) (Val := Elt F) spec4 c [cc4_scratch0, cc4_scratch1]
          ∗ ∃ r, prngReg c r) := by
  unfold Pipeline.ΦA; rw [scopedRest4_split]; simp only [sumsM, cntsM, owns_whole]
  exact BI.equiv_iff.mp ⟨Idealize.SL.BI.sep_assoc, Idealize.SL.BI.sep_assoc'⟩

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

theorem idleAt4_6 : ∀ t : Fin cfg4.N, ¬cond4_1 (grid4.coords t) → idle4 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → idle4 6 (grid4.coords t) = false := by decide +kernel

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => k4_pay6 (sums4 V c t.val t.isLt) (cnts4 V c t.val t.isLt) (iblk4 V c 2 t) (iblk4 V c 3 t) (iblk4 V c 4 t) (iblk4 V c 5 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t
    = k4_pay6 (sums4 V c t.val t.isLt) (cnts4 V c t.val t.isLt) (iblk4 V c 2 t) (iblk4 V c 3 t) (iblk4 V c 4 t) (iblk4 V c 5 t) := by dsimp only [dat4]

-- an input is never written: at every tile the kernel reads the tile's block of the array
theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t)
      ∧ (∀ d, (dat4 V c).before 3 t d = iblk4 V c 3 t) ∧ (∀ d, (dat4 V c).before 4 t d = iblk4 V c 4 t) ∧ (∀ d, (dat4 V c).before 5 t d = iblk4 V c 5 t) := by
  refine ⟨?_, ?_, ?_, ?_, ?_, ?_⟩ <;> intro d <;>
    exact (Dat.before_in_eq_fetched _ _ rfl (fun _ => rfl) (fun _ _ _ => rfl) (fun _ => rfl) t d).trans rfl

theorem Phi4_castSucc (c : Dev nD) (t : Fin cfg4.N) :
    (dat4 V c).Φ t.castSucc = Phi4 V c t.val (Nat.le_of_lt t.isLt) := by
  dsimp only [dat4]; simp only [Fin.coe_castSucc]

theorem Phi4_first (c : Dev nD) : (dat4 V c).Φ 0 = Pipeline.ΦA spec4 c := rfl

theorem Phi4_out (c : Dev nD) (t : Fin (cfg4.N + 1)) (ht : t.val ≠ 0) : (dat4 V c).Φ t ⊢ (Pipeline.ΦA spec4 c : sProp 𝕄) := by
  rw [show (dat4 V c).Φ t = Phi4 V c t.val (Nat.le_of_lt_succ t.isLt) from rfl, Phi4_pos V c _ _ ht, PhiA4_eq]
  unfold rest4
  iintro ⟨HS, HC, HR, Hg⟩
  isplitl [HS HC]
  · isplitl [HS]
    · iexists _; iexact HS
    iexists _; iexact HC
  isplitl [HR]; · iexact HR
  iexact Hg

theorem Phi4_last (c : Dev nD) : (dat4 V c).Φ (Fin.last _) ⊢ (Pipeline.ΦA spec4 c : sProp 𝕄) :=
  Phi4_out V c _ (by rw [Fin.val_last]; have : cfg4.N = 25 := N_4; omega)

theorem hz2 : (![0, 0] : Fin 2 → Nat) = fun _ => 0 := funext fun a => by fin_cases a <;> rfl
theorem hz1 : (![0] : Fin 1 → Nat) = fun _ => 0 := funext fun a => by fin_cases a <;> rfl

-- a write of the whole rectangle, made last, covers every earlier write: reading back gives its payload
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ fun y => ⟨_, List.Mem.head _, View.mem_set_unit_zero h inb y⟩, View.canon_cons_unit_zero h]

-- one tile: the accumulators, taken as zeros at the first tile, gain the tile's one-hot product and column sums; at the last tile the output is their read-out
theorem kernel4 (c : Dev nD) (E : Set ℕ) (i : grid4.Coords) (hne : ¬(cond4_0 i ∧ cond4_1 i))
    (arg1 : Memref sig .tc .vmem S2000x64 .f32) (harg1 : arg1.IsWhole) (arg2 : Memref sig .tc .vmem S2000x1 .i32) (harg2 : arg2.IsWhole) (arg3 : Memref sig .tc .vmem S16x64 .f32) (harg3 : arg3.IsWhole) (arg4 : Memref sig .tc .vmem S16 .f32) (harg4 : arg4.IsWhole) (arg5 : Memref sig .tc .vmem S2x16 .f32) (harg5 : arg5.IsWhole) (arg6 : Memref sig .tc .vmem S2 .f32) (harg6 : arg6.IsWhole) (arg7 : Memref sig .tc .vmem S512x2 .f32) (harg7 : arg7.IsWhole) (arg8 : Memref sig .tc .vmem S512x64 .f32) (harg8 : arg8.IsWhole) (arg9 : Memref sig .tc .vmem S512x1 .f32) (harg9 : arg9.IsWhole)
    (x0 : Vec F S2000x64 .f32) (x1 : Vec F S2000x1 .i32) (x2 : Vec F S16x64 .f32) (x3 : Vec F S16 .f32) (x4 : Vec F S2x16 .f32) (x5 : Vec F S2 .f32)
    (o : Vec F S512x2 .f32) (s : Vec F S512x64 .f32) (n : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare o
        ∗ owns (c : Thread nD τ) arg8 fullShare s ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (if cond4_1 i then k4_pay6 (k4_pay4 x1 x0 (if cond4_0 i then k4_pay1 else s)) (k4_pay5 x1 (if cond4_0 i then k4_pay2 else n)) x2 x3 x4 x5 else o)
            ∗ owns (c : Thread nD τ) arg8 fullShare (k4_pay4 x1 x0 (if cond4_0 i then k4_pay1 else s)) ∗ owns (c : Thread nD τ) arg9 fullShare (k4_pay5 x1 (if cond4_0 i then k4_pay2 else n))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  by_cases hc0 : cond4_0 i <;> by_cases hc1 : cond4_1 i
  · exact absurd ⟨hc0, hc1⟩ hne
  all_goals
    first | rw [if_neg hc1, if_pos hc0, if_pos hc0] | rw [if_pos hc1, if_neg hc0, if_neg hc0] | rw [if_neg hc1, if_neg hc0, if_neg hc0]
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%fs, %hfs, HS⟩, ⟨%fn, %hfn, HN⟩, Hk⟩
    subst hf0 hf1 hf2 hf3 hf4 hf5 hf7 hfs hfn
    sl_exec (disch := first | exact hc0 | exact hc1)
    sl_step
    iapply Hk
    sl_unfold_run_names
    repeat rw [View.readCov_unit_zero _ hz2]
    simp only [View.readAt_eq_ld, View.ld_unit_zero (S := S2000x1) hz2, View.ld_unit_zero (S := S2000x64) hz2, View.ld_unit_zero (S := S512x64) hz2,
      View.ld_unit_zero (S := S512x1) hz2, View.ld_unit_zero (S := S16x64) hz2, View.ld_unit_zero (S := S2x16) hz2,
      View.ld_unit_zero (S := S16) hz1, View.ld_unit_zero (S := S2) hz1]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H7]
    · iexists _; isplitr
      swap; · iexact H7
      ipureintro; first | exact read_store_whole _ _ hz2 _ _ _ | rfl
    isplitl [HS]
    · iexists _; isplitr
      swap; · iexact HS
      ipureintro; exact read_store_whole _ _ hz2 _ _ _
    iexists _; isplitr
    swap; · iexact HN
    ipureintro; exact read_store_whole _ _ hz2 _ _ _

theorem acc4_first (c : Dev nD) (t : Fin cfg4.N) (h0 : t.val = 0) :
    sums4 V c t.val t.isLt = k4_pay4 (iblk4 V c 1 t) (iblk4 V c 0 t) k4_pay1 ∧ cnts4 V c t.val t.isLt = k4_pay5 (iblk4 V c 1 t) k4_pay2 := by
  obtain ⟨_ | n, hn⟩ := t
  exacts [⟨rfl, rfl⟩, absurd h0 (Nat.succ_ne_zero n)]

theorem acc4_later (c : Dev nD) (t : Fin cfg4.N) (h0 : t.val ≠ 0) :
    sums4 V c t.val t.isLt = k4_pay4 (iblk4 V c 1 t) (iblk4 V c 0 t) (sums4 V c (t.val - 1) (Nat.lt_of_le_of_lt (Nat.sub_le _ _) t.isLt))
      ∧ cnts4 V c t.val t.isLt = k4_pay5 (iblk4 V c 1 t) (cnts4 V c (t.val - 1) (Nat.lt_of_le_of_lt (Nat.sub_le _ _) t.isLt)) := by
  obtain ⟨_ | n, hn⟩ := t
  exacts [absurd rfl h0, ⟨rfl, rfl⟩]

-- at tile t the kernel takes the accumulators from the recursion's values after tile t - 1 to those after tile t
theorem body_obligation4 (c : Dev nD) : BodyObligation (dat4 (F := F) V c) (defs₀ (F := F)) Variants.none () Set.univ := fun t => by
  rw [bigSep_W4, bigSep_W4]
  dsimp only
  show _ ⊢ wp _ _ _ (bodyAt4 t) _
  simp only [before4 V c t]
  rw [show (dat4 V c).Φ t.succ = Phi4 V c (t.val + 1) t.isLt from rfl, Phi4_succ]
  have hne : ¬(cond4_0 (grid4.coords t) ∧ cond4_1 (grid4.coords t)) := fun h => by
    have := (hcond4_0 t).mp h.1; have := (hcond4_1 t).mp h.2; omega
  by_cases hc0 : cond4_0 (grid4.coords t) <;> by_cases hc1 : cond4_1 (grid4.coords t)
  · exact absurd ⟨hc0, hc1⟩ hne
  all_goals
    first | simp only [idleAt4_6 t hc1, noFlush4_6 t hc1] | (simp only [liveAt4_6 t hc1]; rw [after4_6])
    have h0 := hc0; rw [hcond4_0] at h0
    first
    | rw [Phi4_castSucc V c t, Phi4_zero V c _ _ h0, PhiA4_eq, (acc4_first V c t h0).1, (acc4_first V c t h0).2]
    | rw [Phi4_castSucc V c t, Phi4_pos V c _ _ h0, (acc4_later V c t h0).1, (acc4_later V c t h0).2]
    unfold rest4
    first
    | iintro ⟨⟨⟨⟨%s, HS⟩, ⟨%n, HC⟩⟩, HR, Hg⟩, Ho, ⟨%d0, H0⟩, ⟨%d1, H1⟩, ⟨%d2, H2⟩, ⟨%d3, H3⟩, ⟨%d4, H4⟩, ⟨%d5, H5⟩, ⟨%d6, H6⟩⟩
    | iintro ⟨⟨HS, HC, HR, Hg⟩, Ho, ⟨%d0, H0⟩, ⟨%d1, H1⟩, ⟨%d2, H2⟩, ⟨%d3, H3⟩, ⟨%d4, H4⟩, ⟨%d5, H5⟩, ⟨%d6, H6⟩⟩
    iapply (kernel4 c Set.univ (grid4.coords t) hne _ _ _ _ _ _ _ _ _ _ _ _ _ _ _ _ _ _
      (iblk4 V c 0 t) (iblk4 V c 1 t) (iblk4 V c 2 t) (iblk4 V c 3 t) (iblk4 V c 4 t) (iblk4 V c 5 t) _ _ _ _)
    first | rw [if_neg hc1, if_pos hc0, if_pos hc0] | rw [if_pos hc1, if_neg hc0, if_neg hc0] | rw [if_neg hc1, if_neg hc0, if_neg hc0]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HC]; · iexact HC
    iintro ⟨H0, H1, H2, H3, H4, H5, H6, HS, HC⟩
    isplitl [HS HC HR Hg]
    · isplitl [HS]; · iexact HS
      isplitl [HC]; · iexact HC
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    first | iexact H6 | (iexists _; iexact H6)

end Cert.Kernel.Hand

end
-- ==== Proof.K.Run.lean ====
import proofs.«409757_j13056700579878_4_alg».proof.Proof.K.RunCond
import proofs.«409757_j13056700579878_4_alg».proof.Proof.K.Region0
import proofs.«409757_j13056700579878_4_alg».proof.Proof.K.Region1
import proofs.«409757_j13056700579878_4_alg».proof.Proof.K.Region2
import proofs.«409757_j13056700579878_4_alg».proof.Proof.K.Region3
import proofs.«409757_j13056700579878_4_alg».proof.Proof.K.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev atRefs (W : Dev nD → Valuation τ sig (Elt F)) : (c : Dev nD) → (b : Ref sig .tc) → Buf (Elt F) ((c : Thread nD τ).loc b) :=
  fun c b => W c b

-- The buffer contents item by item: a region replaces its output array by what its tiles' results fold to, a host stretch applies its operations.
def o4 (c : Dev nD) : Buf (Elt F) ((c : Thread nD τ).loc main_v17) := (dat0 (atRefs (V3 m)) c).arrAt 7 cfg0.N
def X4 (c : Dev nD) : Valuation τ sig (Elt F) := Function.update (V3 m c) main_v17 (o4 m c)
def X5 (c : Dev nD) : Valuation τ sig (Elt F) := StableHlo.after hostOps1 (X4 m c)
def o6 (c : Dev nD) : Buf (Elt F) ((c : Thread nD τ).loc main_v21) := (dat1 (atRefs (X5 m)) c).arrAt 5 cfg1.N
def X6 (c : Dev nD) : Valuation τ sig (Elt F) := Function.update (X5 m c) main_v21 (o6 m c)
def X7 (c : Dev nD) : Valuation τ sig (Elt F) := StableHlo.after hostOps2 (X6 m c)
def X8 (c : Dev nD) : Valuation τ sig (Elt F) := StableHlo.after hostOps2_1 (X7 m c)
def o9 (c : Dev nD) : Buf (Elt F) ((c : Thread nD τ).loc main_v24) := (dat2 (atRefs (X8 m)) c).arrAt 7 cfg2.N
def X9 (c : Dev nD) : Valuation τ sig (Elt F) := Function.update (X8 m c) main_v24 (o9 m c)
def X10 (c : Dev nD) : Valuation τ sig (Elt F) := StableHlo.after hostOps3 (X9 m c)
def o11 (c : Dev nD) : Buf (Elt F) ((c : Thread nD τ).loc main_v28) := (dat3 (atRefs (X10 m)) c).arrAt 5 cfg3.N
def X11 (c : Dev nD) : Valuation τ sig (Elt F) := Function.update (X10 m c) main_v28 (o11 m c)
def o12 (c : Dev nD) : Buf (Elt F) ((c : Thread nD τ).loc main_v29) := (dat4 (atRefs (X11 m)) c).arrAt 6 cfg4.N
def X12 (c : Dev nD) : Valuation τ sig (Elt F) := Function.update (X11 m c) main_v29 (o12 m c)

def outs : Outs (F := F) := fun J r c =>
  match J with
  | 4 => X4 m c r
  | 6 => X6 m c r
  | 9 => X9 m c r
  | 11 => X11 m c r
  | 12 => X12 m c r
  | _ => V0 m c r

theorem outs4 (c : Dev nD) : outs m 4 main_v17 c = o4 m c := by show X4 m c main_v17 = _; exact Function.update_self ..
theorem outs6 (c : Dev nD) : outs m 6 main_v21 c = o6 m c := by show X6 m c main_v21 = _; exact Function.update_self ..
theorem outs9 (c : Dev nD) : outs m 9 main_v24 c = o9 m c := by show X9 m c main_v24 = _; exact Function.update_self ..
theorem outs11 (c : Dev nD) : outs m 11 main_v28 c = o11 m c := by show X11 m c main_v28 = _; exact Function.update_self ..
theorem outs12 (c : Dev nD) : outs m 12 main_v29 c = o12 m c := by show X12 m c main_v29 = _; exact Function.update_self ..

-- The conditional run's valuations, fed these outputs, are the contents above.
theorem V4_eq (c : Dev nD) : V4 m (outs m) c = X4 m c := congrArg (Function.update (V3 m c) main_v17) (outs4 m c)
theorem V5_eq (c : Dev nD) : V5 m (outs m) c = X5 m c := congrArg (StableHlo.after hostOps1) (V4_eq m c)
theorem V6_eq (c : Dev nD) : V6 m (outs m) c = X6 m c := by
  show Function.update (V5 m (outs m) c) main_v21 (outs m 6 main_v21 c) = _; rw [outs6, V5_eq]; rfl
theorem V8_eq (c : Dev nD) : V8 m (outs m) c = X8 m c :=
  congrArg (fun W => StableHlo.after hostOps2_1 (StableHlo.after hostOps2 W)) (V6_eq m c)
theorem V9_eq (c : Dev nD) : V9 m (outs m) c = X9 m c := by
  show Function.update (V8 m (outs m) c) main_v24 (outs m 9 main_v24 c) = _; rw [outs9, V8_eq]; rfl
theorem V10_eq (c : Dev nD) : V10 m (outs m) c = X10 m c := congrArg (StableHlo.after hostOps3) (V9_eq m c)
theorem V11_eq (c : Dev nD) : V11 m (outs m) c = X11 m c := by
  show Function.update (V10 m (outs m) c) main_v28 (outs m 11 main_v28 c) = _; rw [outs11, V10_eq]; rfl
theorem V12_eq (c : Dev nD) : V12 m (outs m) c = X12 m c := by
  show Function.update (V11 m (outs m) c) main_v29 (outs m 12 main_v29 c) = _; rw [outs12, V11_eq]; rfl

def pdats : (p : Fin 5) → (c : Dev nD) → Dat τ (Elt F) Unit ℕ (Pipeline.UD sig nD τ) ℕ (cfgs p) c
  | ⟨0, _⟩ => fun c => dat0 (atRefs (V3 m)) c
  | ⟨1, _⟩ => fun c => dat1 (atRefs (X5 m)) c
  | ⟨2, _⟩ => fun c => dat2 (atRefs (X8 m)) c
  | ⟨3, _⟩ => fun c => dat3 (atRefs (X10 m)) c
  | ⟨4, _⟩ => fun c => dat4 (atRefs (X11 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
-- A region that only replaces the contents of its own arrays: every other buffer is carried across unchanged.
def plainReg (p : Fin 5) (lf : Pipeline.LaunchFacts (nD := nD) (τ := τ) cfgs p) (Ve Vx : Dev nD → Valuation τ sig (Elt F))
    (hb : ∀ c, BodyObligation (pdats m p c) (defs₀ (F := F)) 𝒱₀ () Set.univ)
    (hq : ∀ c w, (pdats m p c).q w = fullShare) (ho : ∀ c t, (pdats m p c).owed t = 0) (hrec : ∀ c, (pdats m p c).recorded 0 = Set.univ)
    (hA : ∀ c w, (pdats m p c).A w = atRefs Ve c (Pipeline.arrRef (pcfgs (F := F) p).spec w))
    (hΦ₀ : ∀ c, (pdats m p c).Φ 0 = Pipeline.ΦA (pcfgs (F := F) p).spec c)
    (hΦN : ∀ c, (pdats m p c).Φ (Fin.last _) ⊢ (Pipeline.ΦA (pcfgs (F := F) p).spec c : sProp 𝕄))
    (hF : ∀ c w, (pdats m p c).arrAt w (cfgs p).N = atRefs Vx c (Pipeline.arrRef (pcfgs (F := F) p).spec w))
    (hr : ∀ c b, b ∉ Finset.univ.image (Pipeline.arrRef (pcfgs (F := F) p).spec) → atRefs Vx c b = atRefs Ve c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Ve c) ∗ R c)
  post c := iprop(StableHlo.held (c : Thread nD τ) (Pipeline.ucRefs τ sig) (Vx c) ∗ R c)
  X c := iprop(∃ r, prngReg c r)
  Y c := iprop(∃ r, prngReg c r)
  Z c := Pipeline.unscopedRest (Ix := Unit) (Name := ℕ) (U := Pipeline.UD sig nD τ) (Lvl := ℕ) (pcfgs (F := F) p).spec c (atRefs Ve c)
  hentry c := by
    rw [Pipeline.ownSems0_none]
    have hsplit := Pipeline.arrays_of_unscopedBufs (p := p) (pcfgs (F := F)) adm (pdats m) lf.win lf.arr_whole c
      ((pdats m p c).share_full (hq c)) (atRefs Ve c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho c]
      icases HO with ⟨%W, HO⟩; iexists W; isplitr; · ipureintro; exact fun x _ => Or.inl (hrec c ▸ Set.mem_univ x)
      iexact HO
    isplitl [Hp]; · iexact Hp
    iexact Hrest
  hin c := by
    rw [hΦ₀ c]; unfold Pipeline.ΦA
    iintro ⟨Hp, -, Hr⟩
    isplitl [Hr]; · iexact Hr
    iexact Hp
  hout c := by
    rw [Pipeline.ownSems0_none]
    refine (hΦN c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := Pipeline.UD sig nD τ) (Lvl := ℕ)
      lf.win lf.arr_whole c (pdats m) ((pdats m p c).share_full (hq c))
      (atRefs Ve c) (atRefs Vx c) ((pdats m p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c]
    icases HO with ⟨%W, -, HO⟩; iexists W; iexact HO

-- At a region's exit an input array holds its entry contents, the output array what the tiles' results fold to, and no other buffer has moved.
theorem hF0 (c : Dev nD) (w : Fin cfg0.W) : (pdats m 0 c).arrAt w cfg0.N = atRefs (X4 m) c (Pipeline.arrRef spec0 w) := by
  by_cases hw : w = 7
  · subst hw
    show _ = X4 m c main_v17
    unfold X4; rw [Function.update_self]; rfl
  · have key : ∀ w : Fin cfg0.W, w ≠ 7 → (cfg0.win w).isOut = false ∧ Pipeline.arrRef spec0 w ∉ ([main_v17] : List (Ref sig .tc)) := by decide
    rw [(pdats m 0 c).arrAt_in w (key w hw).1]
    show (dat0 (atRefs (V3 m)) c).A w = X4 m c (Pipeline.arrRef spec0 w)
    rw [A_eq0, ← V4_eq, V4_of m (outs m) c _ (key w hw).2]

theorem hrest0 (c : Dev nD) : ∀ b, b ∉ Finset.univ.image (Pipeline.arrRef spec0) → atRefs (X4 m) c b = atRefs (V3 m) c b :=
  fun b hb => by
    show X4 m c b = (V3 m) c b
    rw [← V4_eq, V4_of m (outs m) c b (fun h => hb (by
      rw [List.mem_singleton] at h; subst h
      exact Finset.mem_image.mpr ⟨7, Finset.mem_univ _, rfl⟩))]

def reg0 : Pipeline.RegionSeg (pcfgs (F := F)) adm (pdats m) () defs₀ 𝒱₀ L lv 0 :=
  plainReg m 0 launch0 (V3 m) (X4 m) (body_obligation0 _) (fun _ _ => rfl) (fun _ _ => rfl) (fun _ => rfl) (A_eq0 _) (fun c => Phi_eq0 _ c 0) (fun c => Entails.of_eq (Phi_eq0 _ c _)) (hF0 m) (hrest0 m)

theorem hF1 (c : Dev nD) (w : Fin cfg1.W) : (pdats m 1 c).arrAt w cfg1.N = atRefs (X6 m) c (Pipeline.arrRef spec1 w) := by
  by_cases hw : w = 5
  · subst hw
    show _ = X6 m c main_v21
    unfold X6; rw [Function.update_self]; rfl
  · have key : ∀ w : Fin cfg1.W, w ≠ 5 → (cfg1.win w).isOut = false ∧ Pipeline.arrRef spec1 w ∉ ([main_v21] : List (Ref sig .tc)) := by decide
    rw [(pdats m 1 c).arrAt_in w (key w hw).1]
    show (dat1 (atRefs (X5 m)) c).A w = X6 m c (Pipeline.arrRef spec1 w)
    rw [A_eq1, ← V6_eq, V6_of m (outs m) c _ (key w hw).2, V5_eq]

theorem hrest1 (c : Dev nD) : ∀ b, b ∉ Finset.univ.image (Pipeline.arrRef spec1) → atRefs (X6 m) c b = atRefs (X5 m) c b :=
  fun b hb => by
    show X6 m c b = (X5 m) c b
    rw [← V6_eq, V6_of m (outs m) c b (fun h => hb (by
      rw [List.mem_singleton] at h; subst h
      exact Finset.mem_image.mpr ⟨5, Finset.mem_univ _, rfl⟩)), V5_eq]

def reg1 : Pipeline.RegionSeg (pcfgs (F := F)) adm (pdats m) () defs₀ 𝒱₀ L lv 1 :=
  plainReg m 1 launch1 (X5 m) (X6 m) (body_obligation1 _) (fun _ _ => rfl) (fun _ _ => rfl) (fun _ => rfl) (A_eq1 _) (fun c => Phi_eq1 _ c 0) (fun c => Entails.of_eq (Phi_eq1 _ c _)) (hF1 m) (hrest1 m)

theorem hF2 (c : Dev nD) (w : Fin cfg2.W) : (pdats m 2 c).arrAt w cfg2.N = atRefs (X9 m) c (Pipeline.arrRef spec2 w) := by
  by_cases hw : w = 7
  · subst hw
    show _ = X9 m c main_v24
    unfold X9; rw [Function.update_self]; rfl
  · have key : ∀ w : Fin cfg2.W, w ≠ 7 → (cfg2.win w).isOut = false ∧ Pipeline.arrRef spec2 w ∉ ([main_v24] : List (Ref sig .tc)) := by decide
    rw [(pdats m 2 c).arrAt_in w (key w hw).1]
    show (dat2 (atRefs (X8 m)) c).A w = X9 m c (Pipeline.arrRef spec2 w)
    rw [A_eq2, ← V9_eq, V9_of m (outs m) c _ (key w hw).2, V8_eq]

theorem hrest2 (c : Dev nD) : ∀ b, b ∉ Finset.univ.image (Pipeline.arrRef spec2) → atRefs (X9 m) c b = atRefs (X8 m) c b :=
  fun b hb => by
    show X9 m c b = (X8 m) c b
    rw [← V9_eq, V9_of m (outs m) c b (fun h => hb (by
      rw [List.mem_singleton] at h; subst h
      exact Finset.mem_image.mpr ⟨7, Finset.mem_univ _, rfl⟩)), V8_eq]

def reg2 : Pipeline.RegionSeg (pcfgs (F := F)) adm (pdats m) () defs₀ 𝒱₀ L lv 2 :=
  plainReg m 2 launch2 (X8 m) (X9 m) (body_obligation2 _) (fun _ _ => rfl) (fun _ _ => rfl) (fun _ => rfl) (A_eq2 _) (fun c => Phi_eq2 _ c 0) (fun c => Entails.of_eq (Phi_eq2 _ c _)) (hF2 m) (hrest2 m)

theorem hF3 (c : Dev nD) (w : Fin cfg3.W) : (pdats m 3 c).arrAt w cfg3.N = atRefs (X11 m) c (Pipeline.arrRef spec3 w) := by
  by_cases hw : w = 5
  · subst hw
    show _ = X11 m c main_v28
    unfold X11; rw [Function.update_self]; rfl
  · have key : ∀ w : Fin cfg3.W, w ≠ 5 → (cfg3.win w).isOut = false ∧ Pipeline.arrRef spec3 w ∉ ([main_v28] : List (Ref sig .tc)) := by decide
    rw [(pdats m 3 c).arrAt_in w (key w hw).1]
    show (dat3 (atRefs (X10 m)) c).A w = X11 m c (Pipeline.arrRef spec3 w)
    rw [A_eq3, ← V11_eq, V11_of m (outs m) c _ (key w hw).2, V10_eq]

theorem hrest3 (c : Dev nD) : ∀ b, b ∉ Finset.univ.image (Pipeline.arrRef spec3) → atRefs (X11 m) c b = atRefs (X10 m) c b :=
  fun b hb => by
    show X11 m c b = (X10 m) c b
    rw [← V11_eq, V11_of m (outs m) c b (fun h => hb (by
      rw [List.mem_singleton] at h; subst h
      exact Finset.mem_image.mpr ⟨5, Finset.mem_univ _, rfl⟩)), V10_eq]

def reg3 : Pipeline.RegionSeg (pcfgs (F := F)) adm (pdats m) () defs₀ 𝒱₀ L lv 3 :=
  plainReg m 3 launch3 (X10 m) (X11 m) (body_obligation3 _) (fun _ _ => rfl) (fun _ _ => rfl) (fun _ => rfl) (A_eq3 _) (fun c => Phi_eq3 _ c 0) (fun c => Entails.of_eq (Phi_eq3 _ c _)) (hF3 m) (hrest3 m)

theorem hF4 (c : Dev nD) (w : Fin cfg4.W) : (pdats m 4 c).arrAt w cfg4.N = atRefs (X12 m) c (Pipeline.arrRef spec4 w) := by
  by_cases hw : w = 6
  · subst hw
    show _ = X12 m c main_v29
    unfold X12; rw [Function.update_self]; rfl
  · have key : ∀ w : Fin cfg4.W, w ≠ 6 → (cfg4.win w).isOut = false ∧ Pipeline.arrRef spec4 w ∉ ([main_v29] : List (Ref sig .tc)) := by decide
    rw [(pdats m 4 c).arrAt_in w (key w hw).1]
    show (dat4 (atRefs (X11 m)) c).A w = X12 m c (Pipeline.arrRef spec4 w)
    rw [A_eq4, ← V12_eq, V12_of m (outs m) c _ (key w hw).2, V11_eq]

theorem hrest4 (c : Dev nD) : ∀ b, b ∉ Finset.univ.image (Pipeline.arrRef spec4) → atRefs (X12 m) c b = atRefs (X11 m) c b :=
  fun b hb => by
    show X12 m c b = (X11 m) c b
    rw [← V12_eq, V12_of m (outs m) c b (fun h => hb (by
      rw [List.mem_singleton] at h; subst h
      exact Finset.mem_image.mpr ⟨6, Finset.mem_univ _, rfl⟩)), V11_eq]

def reg4 : Pipeline.RegionSeg (pcfgs (F := F)) adm (pdats m) () defs₀ 𝒱₀ L lv 4 :=
  plainReg m 4 launch4 (X11 m) (X12 m) (body_obligation4 _) (fun _ _ => rfl) (fun _ _ => rfl) (fun _ => rfl) (A_eq4 _) (Phi4_first _) (Phi4_last _) (hF4 m) (hrest4 m)

set_option backward.isDefEq.respectTransparency.types false in
-- @main runs to the end: the result array ends at what the last region leaves in it, and every argument array as launched.
theorem run_main : θ_run defs (onTc (τ := τ) (main (F := F))) ⟨m, fun _ => 0, ρ⟩ (fun r => ∀ c : Dev nD,
      r.2.mem ((c.tc : Thread nD τ).loc main_v29) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  have h := run_cond (F := F) m (EP := embL) (ι := ()) (𝒱₀ := 𝒱₀) (L := L) (lv := lv) (hL := fun _ _ => rfl) (ρ := ρ)
    (outs := outs m) (pdats := pdats m) (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE5 := fun c => by iintro ⟨-, H⟩; iexact H)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V8_eq]; exact .rfl) (hpost2 := fun c => by rw [V9_eq]; exact .rfl)
    (R3 := reg3 m) (hpre3 := fun c => by rw [V10_eq]; exact .rfl) (hpost3 := fun c => by rw [V11_eq]; exact .rfl)
    (R4 := reg4 m) (hpre4 := fun c => by rw [V11_eq]; exact .rfl) (hpost4 := fun c => by rw [V12_eq]; exact .rfl)
  refine (θ_run defs _ _).mono (fun r hr c => ?_) h
  obtain ⟨a0, a1, a2, a3, a4, a5, a6, a7, a8, a9, a10, a11, a12, a13, a14, a15, o⟩ := hr c
  exact ⟨o.trans (outs12 m c), a0, a1, a2, a3, a4, a5, a6, a7, a8, a9, a10, a11, a12, a13, a14, a15⟩

end Cert.Kernel.Hand

end
-- ==== Proof.KI.Region0.lean ====
import proofs.«409757_j13056700579878_4_alg».proof.Proof.Gen.KernelIdeal.Launch
import proofs.«409757_j13056700579878_4_alg».proof.Proof.Gen.KernelIdeal.Skeleton
import proofs.«409757_j13056700579878_4_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay1 (iblk0 V c 0 t) (iblk0 V c 3 t) (iblk0 V c 1 t) (iblk0 V c 4 t) (iblk0 V c 2 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := rfl

theorem Phi_eq0 (c : Dev nD) (t) : (dat0 V c).Φ t = Pipeline.ΦA spec0 c := rfl

theorem after0_out (c : Dev nD) (t : Fin cfg0.N) : (dat0 V c).after 7 t = k0_pay1 (iblk0 V c 0 t) (iblk0 V c 3 t) (iblk0 V c 1 t) (iblk0 V c 4 t) (iblk0 V c 2 t) (iblk0 V c 5 t) (iblk0 V c 6 t) := rfl

-- The body only reads its inputs: what it finds in one is what it leaves there.
theorem before0 (c : Dev nD) (w : Fin cfg0.W) (hw : w ≠ 7) (t : Fin cfg0.N) (d) : (dat0 V c).before w t d = (dat0 V c).after w t := by
  fin_cases w <;> first | exact absurd rfl hw | exact (dat0 V c).before_in_eq_fetched _ rfl (fun _ => rfl) (fun _ _ _ => rfl) (fun _ => rfl) t d

-- The kernel stores over the whole output its value of the seven inputs, each read whole.
theorem sound_kernel0 (c : Dev nD) (E : Set ℕ) (i : grid0.Coords) (arg1 arg2 : Memref sig .tc .vmem S6400x64 .f32) (arg3 : Memref sig .tc .vmem S6400x8 .f32) (arg4 arg5 : Memref sig .tc .vmem S4x64 .f32) (arg6 : Memref sig .tc .vmem S4x8 .f32) (arg7 : Memref sig .tc .vmem S4 .f32) (arg8 : Memref sig .tc .vmem S6400x4 .f32)
    (harg1 harg2 harg3 harg4 harg5 harg6 harg7 harg8 x0 x1 x2 x3 x4 x5 x6 d) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare d
        ∗ (owns c arg1 fullShare x0 -∗ owns c arg2 fullShare x1 -∗ owns c arg3 fullShare x2 -∗ owns c arg4 fullShare x3 -∗ owns c arg5 fullShare x4 -∗ owns c arg6 fullShare x5 -∗ owns c arg7 fullShare x6 -∗ owns c arg8 fullShare (k0_pay1 x0 x3 x1 x4 x2 x5 x6) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  simp only [cc0_kernel_eq_skeleton]; unfold cc0_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, Hk⟩
  subst_vars
  sl_exec
  sl_step
  iapply Hk $$ [H0] [H1] [H2] [H3] [H4] [H5] [H6] [H7]
  all_goals (iexists _; isplitr; swap; iassumption; ipureintro)
  iterate 7 rfl
  refine (View.read_writes_eq_canon _ _ _ fun y => ⟨_, List.mem_singleton_self _, View.mem_set_unit_zero (by decide) inb_S6400x4_S6400x4_0_0 y⟩).trans ((View.canon_unit_zero (by decide) _ _).trans ?_)
  sl_unfold_run_names
  simp (disch := decide) only [View.readAt_eq_ld, View.ld_unit_zero (S := S6400x64), View.ld_unit_zero (S := S6400x8),
    View.ld_unit_zero (S := S4x64), View.ld_unit_zero (S := S4x8), View.ld_unit_zero (S := S4)]

-- At each grid point the kernel's triple applies to the inputs' blocks; the rest is framed.
theorem body_obligation0 (c : Dev nD) : BodyObligation (dat0 (F := F) V c) (defs₀ (F := F)) Variants.none () Set.univ := fun t => by
  rw [bigSep_W0, bigSep_W0]
  simp (disch := decide) only [before0, Phi_eq0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ _ _ _ _ _ _ _ _ _)
  iframe
  iintro H0 H1 H2 H3 H4 H5 H6 H7
  iframe
  isplitl [Ho]
  iexact Ho
  iexact H7

end Cert.KernelIdeal.Hand

end
-- ==== Proof.KI.Region1.lean ====
import proofs.«409757_j13056700579878_4_alg».proof.Proof.Gen.KernelIdeal.Launch
import proofs.«409757_j13056700579878_4_alg».proof.Proof.Gen.KernelIdeal.Skeleton
import proofs.«409757_j13056700579878_4_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- each input is read whole, and the output is overwritten whole by the payload of the inputs
theorem sound_kernel1 {c : Dev nD} {E : Set ℕ} {i : grid1.Coords}
    {arg1 : Memref sig .tc .vmem S2000x64 .f32} {harg1 : arg1.IsWhole} {arg2 : Memref sig .tc .vmem S2000x4 .f32} {harg2 : arg2.IsWhole}
    {arg3 : Memref sig .tc .vmem S64x64 .f32} {harg3 : arg3.IsWhole} {arg4 : Memref sig .tc .vmem S64x4 .f32} {harg4 : arg4.IsWhole}
    {arg5 : Memref sig .tc .vmem S64 .f32} {harg5 : arg5.IsWhole} {arg6 : Memref sig .tc .vmem S2000x64 .f32} {harg6 : arg6.IsWhole}
    {h : Vec F S2000x64 .f32} {agg : Vec F S2000x4 .f32} {wh : Vec F S64x64 .f32} {wa : Vec F S64x4 .f32} {b : Vec F S64 .f32}
    {X : Vec F S2000x64 .f32 → Vec F S2000x64 .f32} {P Q : sProp 𝕄} :
    iprop(P ∗ Q ∗ (∃ _ : Vec F S2000x64 .f32, owns c arg1 fullShare h) ∗ (∃ _ : Vec F S2000x4 .f32, owns c arg2 fullShare agg)
        ∗ (∃ _ : Vec F S64x64 .f32, owns c arg3 fullShare wh) ∗ (∃ _ : Vec F S64x4 .f32, owns c arg4 fullShare wa)
        ∗ (∃ _ : Vec F S64 .f32, owns c arg5 fullShare b) ∗ (∃ d, owns c arg6 fullShare (X d)))
      ⊢ wp frame (wpE (defs₀ (F := F)) Variants.none c none) E (cc1_kernel i arg1 harg1 arg2 harg2 arg3 harg3 arg4 harg4 arg5 harg5 arg6 harg6) fun _ =>
        iprop(P ∗ Q ∗ owns c arg1 fullShare h ∗ owns c arg2 fullShare agg ∗ owns c arg3 fullShare wh ∗ owns c arg4 fullShare wa
          ∗ owns c arg5 fullShare b ∗ owns c arg6 fullShare (k1_pay1 h wh agg wa b)) := by
  simp only [cc1_kernel_eq_skeleton]; unfold cc1_kernel_skel owns
  iintro ⟨HP, HQ, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  sl_exec
  sl_step
  iframe HP HQ
  isplitl [H1]; · iexists f1; iframe %hf1 H1
  isplitl [H2]; · iexists f2; iframe %hf2 H2
  isplitl [H3]; · iexists f3; iframe %hf3 H3
  isplitl [H4]; · iexists f4; iframe %hf4 H4
  isplitl [H5]; · iexists f5; iframe %hf5 H5
  iexists _; iframe H6
  subst hf1 hf2 hf3 hf4 hf5
  ipureintro
  exact (View.read_writes_eq_canon _ _ _ fun y => ⟨_, List.mem_singleton_self _, View.mem_set_unit_zero (by decide) inb_S2000x64_S2000x64_0_0 y⟩).trans
    ((View.canon_unit_zero (by decide) _ _).trans (by congr 1 <;> exact View.ld_unit_zero (by decide) _ _))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 2 t) (iblk1 V c 1 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem Phi_eq1 (c : Dev nD) (t) : (dat1 V c).Φ t = Pipeline.ΦA spec1 c := by
  dsimp only [dat1]

theorem after1_out (c : Dev nD) (t : Fin cfg1.N) :
    (dat1 V c).after 5 t = k1_pay1 (iblk1 V c 0 t) (iblk1 V c 2 t) (iblk1 V c 1 t) (iblk1 V c 3 t) (iblk1 V c 4 t) := by
  dsimp only [dat1]

theorem before1 (c : Dev nD) (t : Fin cfg1.N) :
    (∀ d, (dat1 V c).before 0 t d = iblk1 V c 0 t) ∧ (∀ d, (dat1 V c).before 1 t d = iblk1 V c 1 t) ∧
    (∀ d, (dat1 V c).before 2 t d = iblk1 V c 2 t) ∧ (∀ d, (dat1 V c).before 3 t d = iblk1 V c 3 t) ∧
    ∀ d, (dat1 V c).before 4 t d = iblk1 V c 4 t := by
  refine ⟨?_, ?_, ?_, ?_, ?_⟩ <;> exact Dat.before_in_eq_fetched _ _ rfl (fun _ => rfl) (fun _ _ _ => rfl) (fun _ => rfl) t

theorem body_obligation1 (c : Dev nD) : BodyObligation (dat1 (F := F) V c) (defs₀ (F := F)) Variants.none () Set.univ := fun t => by
  rw [bigSep_W1, bigSep_W1]
  simp only [before1 V c t]
  show _ ⊢ wp _ _ _ (bodyAt1 t) _
  exact sound_kernel1

end Cert.KernelIdeal.Hand

end
-- ==== Proof.KI.Region2.lean ====
import proofs.«409757_j13056700579878_4_alg».proof.Proof.Gen.KernelIdeal.Launch
import proofs.«409757_j13056700579878_4_alg».proof.Proof.Gen.KernelIdeal.Skeleton
import proofs.«409757_j13056700579878_4_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => k2_pay1 (iblk2 V c 0 t) (iblk2 V c 3 t) (iblk2 V c 1 t) (iblk2 V c 4 t) (iblk2 V c 2 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem Phi_eq2 (c : Dev nD) (t) : (dat2 V c).Φ t = Pipeline.ΦA spec2 c := rfl

theorem after2_out (c : Dev nD) (t : Fin cfg2.N) : (dat2 V c).after 7 t = k2_pay1 (iblk2 V c 0 t) (iblk2 V c 3 t) (iblk2 V c 1 t) (iblk2 V c 4 t) (iblk2 V c 2 t) (iblk2 V c 5 t) (iblk2 V c 6 t) := rfl

-- The body only reads its inputs: what it finds in one is what it leaves there.
theorem before2 (c : Dev nD) (w : Fin cfg2.W) (hw : w ≠ 7) (t : Fin cfg2.N) (d) : (dat2 V c).before w t d = (dat2 V c).after w t := by
  fin_cases w <;> first | exact absurd rfl hw | exact (dat2 V c).before_in_eq_fetched _ rfl (fun _ => rfl) (fun _ _ _ => rfl) (fun _ => rfl) t d

-- The kernel stores over the whole output its value of the seven inputs, each read whole.
theorem sound_kernel2 (c : Dev nD) (E : Set ℕ) (i : grid2.Coords) (arg1 arg2 : Memref sig .tc .vmem S6400x64 .f32) (arg3 : Memref sig .tc .vmem S6400x8 .f32) (arg4 arg5 : Memref sig .tc .vmem S4x64 .f32) (arg6 : Memref sig .tc .vmem S4x8 .f32) (arg7 : Memref sig .tc .vmem S4 .f32) (arg8 : Memref sig .tc .vmem S6400x4 .f32)
    (harg1 harg2 harg3 harg4 harg5 harg6 harg7 harg8 x0 x1 x2 x3 x4 x5 x6 d) (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare d
        ∗ (owns c arg1 fullShare x0 -∗ owns c arg2 fullShare x1 -∗ owns c arg3 fullShare x2 -∗ owns c arg4 fullShare x3 -∗ owns c arg5 fullShare x4 -∗ owns c arg6 fullShare x5 -∗ owns c arg7 fullShare x6 -∗ owns c arg8 fullShare (k2_pay1 x0 x3 x1 x4 x2 x5 x6) -∗ K ⟨⟩))
      ⊢ wp frame (wpE (defs₀ (F := F)) Variants.none c none) E (cc2_kernel i arg1 harg1 arg2 harg2 arg3 harg3 arg4 harg4 arg5 harg5 arg6 harg6 arg7 harg7 arg8 harg8) K := by
  simp only [cc2_kernel_eq_skeleton]; unfold cc2_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, Hk⟩
  subst_vars
  sl_exec
  sl_step
  iapply Hk $$ [H0] [H1] [H2] [H3] [H4] [H5] [H6] [H7]
  all_goals (iexists _; isplitr; swap; iassumption; ipureintro)
  iterate 7 rfl
  refine (View.read_writes_eq_canon _ _ _ fun y => ⟨_, List.mem_singleton_self _, View.mem_set_unit_zero (by decide) inb_S6400x4_S6400x4_0_0 y⟩).trans ((View.canon_unit_zero (by decide) _ _).trans ?_)
  sl_unfold_run_names
  simp (disch := decide) only [View.readAt_eq_ld, View.ld_unit_zero (S := S6400x64), View.ld_unit_zero (S := S6400x8),
    View.ld_unit_zero (S := S4x64), View.ld_unit_zero (S := S4x8), View.ld_unit_zero (S := S4)]

-- At each grid point the kernel's triple applies to the inputs' blocks; the rest is framed.
theorem body_obligation2 (c : Dev nD) : BodyObligation (dat2 (F := F) V c) (defs₀ (F := F)) Variants.none () Set.univ := fun t => by
  rw [bigSep_W2, bigSep_W2]
  simp (disch := decide) only [before2, Phi_eq2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ _ _ _ _ _ _ _ _ _)
  iframe
  iintro H0 H1 H2 H3 H4 H5 H6 H7
  iframe
  isplitl [Ho]
  iexact Ho
  iexact H7

end Cert.KernelIdeal.Hand

end
-- ==== Proof.KI.Region3.lean ====
import proofs.«409757_j13056700579878_4_alg».proof.Proof.Gen.KernelIdeal.Launch
import proofs.«409757_j13056700579878_4_alg».proof.Proof.Gen.KernelIdeal.Skeleton
import proofs.«409757_j13056700579878_4_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- each input is read whole, and the output is overwritten whole by the payload of the inputs
theorem sound_kernel3 {c : Dev nD} {E : Set ℕ} {i : grid3.Coords}
    {arg1 : Memref sig .tc .vmem S2000x64 .f32} {harg1 : arg1.IsWhole} {arg2 : Memref sig .tc .vmem S2000x4 .f32} {harg2 : arg2.IsWhole}
    {arg3 : Memref sig .tc .vmem S64x64 .f32} {harg3 : arg3.IsWhole} {arg4 : Memref sig .tc .vmem S64x4 .f32} {harg4 : arg4.IsWhole}
    {arg5 : Memref sig .tc .vmem S64 .f32} {harg5 : arg5.IsWhole} {arg6 : Memref sig .tc .vmem S2000x64 .f32} {harg6 : arg6.IsWhole}
    {h : Vec F S2000x64 .f32} {agg : Vec F S2000x4 .f32} {wh : Vec F S64x64 .f32} {wa : Vec F S64x4 .f32} {b : Vec F S64 .f32}
    {X : Vec F S2000x64 .f32 → Vec F S2000x64 .f32} {P Q : sProp 𝕄} :
    iprop(P ∗ Q ∗ (∃ _ : Vec F S2000x64 .f32, owns c arg1 fullShare h) ∗ (∃ _ : Vec F S2000x4 .f32, owns c arg2 fullShare agg)
        ∗ (∃ _ : Vec F S64x64 .f32, owns c arg3 fullShare wh) ∗ (∃ _ : Vec F S64x4 .f32, owns c arg4 fullShare wa)
        ∗ (∃ _ : Vec F S64 .f32, owns c arg5 fullShare b) ∗ (∃ d, owns c arg6 fullShare (X d)))
      ⊢ wp frame (wpE (defs₀ (F := F)) Variants.none c none) E (cc3_kernel i arg1 harg1 arg2 harg2 arg3 harg3 arg4 harg4 arg5 harg5 arg6 harg6) fun _ =>
        iprop(P ∗ Q ∗ owns c arg1 fullShare h ∗ owns c arg2 fullShare agg ∗ owns c arg3 fullShare wh ∗ owns c arg4 fullShare wa
          ∗ owns c arg5 fullShare b ∗ owns c arg6 fullShare (k3_pay1 h wh agg wa b)) := by
  simp only [cc3_kernel_eq_skeleton]; unfold cc3_kernel_skel owns
  iintro ⟨HP, HQ, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  sl_exec
  sl_step
  iframe HP HQ
  isplitl [H1]; · iexists f1; iframe %hf1 H1
  isplitl [H2]; · iexists f2; iframe %hf2 H2
  isplitl [H3]; · iexists f3; iframe %hf3 H3
  isplitl [H4]; · iexists f4; iframe %hf4 H4
  isplitl [H5]; · iexists f5; iframe %hf5 H5
  iexists _; iframe H6
  subst hf1 hf2 hf3 hf4 hf5
  ipureintro
  exact (View.read_writes_eq_canon _ _ _ fun y => ⟨_, List.mem_singleton_self _, View.mem_set_unit_zero (by decide) inb_S2000x64_S2000x64_0_0 y⟩).trans
    ((View.canon_unit_zero (by decide) _ _).trans (by congr 1 <;> exact View.ld_unit_zero (by decide) _ _))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (iblk3 V c 0 t) (iblk3 V c 2 t) (iblk3 V c 1 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem Phi_eq3 (c : Dev nD) (t) : (dat3 V c).Φ t = Pipeline.ΦA spec3 c := by
  dsimp only [dat3]

theorem after3_out (c : Dev nD) (t : Fin cfg3.N) :
    (dat3 V c).after 5 t = k3_pay1 (iblk3 V c 0 t) (iblk3 V c 2 t) (iblk3 V c 1 t) (iblk3 V c 3 t) (iblk3 V c 4 t) := by
  dsimp only [dat3]

theorem before3 (c : Dev nD) (t : Fin cfg3.N) :
    (∀ d, (dat3 V c).before 0 t d = iblk3 V c 0 t) ∧ (∀ d, (dat3 V c).before 1 t d = iblk3 V c 1 t) ∧
    (∀ d, (dat3 V c).before 2 t d = iblk3 V c 2 t) ∧ (∀ d, (dat3 V c).before 3 t d = iblk3 V c 3 t) ∧
    ∀ d, (dat3 V c).before 4 t d = iblk3 V c 4 t := by
  refine ⟨?_, ?_, ?_, ?_, ?_⟩ <;> exact Dat.before_in_eq_fetched _ _ rfl (fun _ => rfl) (fun _ _ _ => rfl) (fun _ => rfl) t

theorem body_obligation3 (c : Dev nD) : BodyObligation (dat3 (F := F) V c) (defs₀ (F := F)) Variants.none () Set.univ := fun t => by
  rw [bigSep_W3, bigSep_W3]
  simp only [before3 V c t]
  show _ ⊢ wp _ _ _ (bodyAt3 t) _
  exact sound_kernel3

end Cert.KernelIdeal.Hand

end
-- ==== Proof.KI.Region4.lean ====
import proofs.«409757_j13056700579878_4_alg».proof.Proof.Gen.KernelIdeal.Launch
import proofs.«409757_j13056700579878_4_alg».proof.Proof.Gen.KernelIdeal.Skeleton
import proofs.«409757_j13056700579878_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- the per-graph sums after tile n: every tile adds its one-hot product to what the tile before left, the first to zeros
def sums4 (c : Dev nD) : (n : ℕ) → n < cfg4.N → Vec F S512x64 .f32
  | 0, h => k4_pay4 (iblk4 V c 1 ⟨0, h⟩) (iblk4 V c 0 ⟨0, h⟩) k4_pay1
  | n + 1, h => k4_pay4 (iblk4 V c 1 ⟨n + 1, h⟩) (iblk4 V c 0 ⟨n + 1, h⟩) (sums4 c n (Nat.lt_of_succ_lt h))

def cnts4 (c : Dev nD) : (n : ℕ) → n < cfg4.N → Vec F S512x1 .f32
  | 0, h => k4_pay5 (iblk4 V c 1 ⟨0, h⟩) k4_pay2
  | n + 1, h => k4_pay5 (iblk4 V c 1 ⟨n + 1, h⟩) (cnts4 c n (Nat.lt_of_succ_lt h))

abbrev sumsM : Memref sig .tc .vmem S512x64 .f32 := Memref.whole cc4_scratch0
abbrev cntsM : Memref sig .tc .vmem S512x1 .f32 := Memref.whole cc4_scratch1

def rest4 (c : Dev nD) : sProp 𝕄 :=
  iprop(Pipeline.scopedRestBut (Ix := Unit) (Name := ℕ) (U := Pipeline.UD sig nD τ) (Lvl := ℕ) (Val := Elt F) spec4 c [cc4_scratch0, cc4_scratch1]
    ∗ ∃ r, prngReg c r)

-- before the first tile the accumulators hold anything; afterwards the recursion's values after the tile before
def Phi4 (c : Dev nD) : (n : ℕ) → n ≤ cfg4.N → sProp 𝕄
  | 0, _ => Pipeline.ΦA spec4 c
  | n + 1, hn => iprop(owns (c : Thread nD τ) sumsM fullShare (sums4 V c n hn) ∗ owns (c : Thread nD τ) cntsM fullShare (cnts4 V c n hn) ∗ rest4 c)

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(owns (c : Thread nD τ) sumsM fullShare (sums4 V c n hn) ∗ owns (c : Thread nD τ) cntsM fullShare (cnts4 V c n hn) ∗ rest4 c) := rfl

theorem Phi4_pos (c : Dev nD) (n : ℕ) (h : n ≤ cfg4.N) (hz : n ≠ 0) :
    Phi4 V c n h = iprop(owns (c : Thread nD τ) sumsM fullShare (sums4 V c (n - 1) (by omega)) ∗ owns (c : Thread nD τ) cntsM fullShare (cnts4 V c (n - 1) (by omega)) ∗ rest4 c) := by
  cases n with
  | zero => exact absurd rfl hz
  | succ n => rfl

theorem PhiA4_eq (c : Dev nD) :
    (Pipeline.ΦA spec4 c : sProp 𝕄)
      = iprop(((∃ d, owns (c : Thread nD τ) sumsM fullShare d) ∗ (∃ d, owns (c : Thread nD τ) cntsM fullShare d))
          ∗ Pipeline.scopedRestBut (Ix := Unit) (Name := ℕ) (U := Pipeline.UD sig nD τ) (Lvl := ℕ) (Val := Elt F) spec4 c [cc4_scratch0, cc4_scratch1]
          ∗ ∃ r, prngReg c r) := by
  unfold Pipeline.ΦA; rw [scopedRest4_split]; simp only [sumsM, cntsM, owns_whole]
  exact BI.equiv_iff.mp ⟨Idealize.SL.BI.sep_assoc, Idealize.SL.BI.sep_assoc'⟩

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1
theorem hcond4_1 : ∀ t : Fin cfg4.N, cond4_1 (grid4.coords t) ↔ t.val = 24 :=
  (by decide +kernel : ∀ t : Fin grid4.N, cond4_1 (grid4.coords t) ↔ t.val = 24)

theorem idleAt4_6 : ∀ t : Fin cfg4.N, ¬cond4_1 (grid4.coords t) → idle4 6 (grid4.coords t) = true := by decide +kernel
theorem noFlush4_6 : ∀ t : Fin cfg4.N, ¬cond4_1 (grid4.coords t) → (cfg4.win 6).flush t = false := by decide +kernel
theorem liveAt4_6 : ∀ t : Fin cfg4.N, cond4_1 (grid4.coords t) → idle4 6 (grid4.coords t) = false := by decide +kernel

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => k4_pay6 (sums4 V c t.val t.isLt) (cnts4 V c t.val t.isLt) (iblk4 V c 2 t) (iblk4 V c 3 t) (iblk4 V c 4 t) (iblk4 V c 5 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_6 (c : Dev nD) (t : Fin cfg4.N) : (dat4 V c).after 6 t
    = k4_pay6 (sums4 V c t.val t.isLt) (cnts4 V c t.val t.isLt) (iblk4 V c 2 t) (iblk4 V c 3 t) (iblk4 V c 4 t) (iblk4 V c 5 t) := by dsimp only [dat4]

-- an input is never written: at every tile the kernel reads the tile's block of the array
theorem before4 (c : Dev nD) (t : Fin cfg4.N) :
    (∀ d, (dat4 V c).before 0 t d = iblk4 V c 0 t) ∧ (∀ d, (dat4 V c).before 1 t d = iblk4 V c 1 t) ∧ (∀ d, (dat4 V c).before 2 t d = iblk4 V c 2 t)
      ∧ (∀ d, (dat4 V c).before 3 t d = iblk4 V c 3 t) ∧ (∀ d, (dat4 V c).before 4 t d = iblk4 V c 4 t) ∧ (∀ d, (dat4 V c).before 5 t d = iblk4 V c 5 t) := by
  refine ⟨?_, ?_, ?_, ?_, ?_, ?_⟩ <;> intro d <;>
    exact (Dat.before_in_eq_fetched _ _ rfl (fun _ => rfl) (fun _ _ _ => rfl) (fun _ => rfl) t d).trans rfl

theorem Phi4_castSucc (c : Dev nD) (t : Fin cfg4.N) :
    (dat4 V c).Φ t.castSucc = Phi4 V c t.val (Nat.le_of_lt t.isLt) := by
  dsimp only [dat4]; simp only [Fin.coe_castSucc]

theorem Phi4_first (c : Dev nD) : (dat4 V c).Φ 0 = Pipeline.ΦA spec4 c := rfl

theorem Phi4_out (c : Dev nD) (t : Fin (cfg4.N + 1)) (ht : t.val ≠ 0) : (dat4 V c).Φ t ⊢ (Pipeline.ΦA spec4 c : sProp 𝕄) := by
  rw [show (dat4 V c).Φ t = Phi4 V c t.val (Nat.le_of_lt_succ t.isLt) from rfl, Phi4_pos V c _ _ ht, PhiA4_eq]
  unfold rest4
  iintro ⟨HS, HC, HR, Hg⟩
  isplitl [HS HC]
  · isplitl [HS]
    · iexists _; iexact HS
    iexists _; iexact HC
  isplitl [HR]; · iexact HR
  iexact Hg

theorem Phi4_last (c : Dev nD) : (dat4 V c).Φ (Fin.last _) ⊢ (Pipeline.ΦA spec4 c : sProp 𝕄) :=
  Phi4_out V c _ (by rw [Fin.val_last]; have : cfg4.N = 25 := N_4; omega)

theorem hz2 : (![0, 0] : Fin 2 → Nat) = fun _ => 0 := funext fun a => by fin_cases a <;> rfl
theorem hz1 : (![0] : Fin 1 → Nat) = fun _ => 0 := funext fun a => by fin_cases a <;> rfl

-- a write of the whole rectangle, made last, covers every earlier write: reading back gives its payload
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ fun y => ⟨_, List.Mem.head _, View.mem_set_unit_zero h inb y⟩, View.canon_cons_unit_zero h]

-- one tile: the accumulators, taken as zeros at the first tile, gain the tile's one-hot product and column sums; at the last tile the output is their read-out
theorem kernel4 (c : Dev nD) (E : Set ℕ) (i : grid4.Coords) (hne : ¬(cond4_0 i ∧ cond4_1 i))
    (arg1 : Memref sig .tc .vmem S2000x64 .f32) (harg1 : arg1.IsWhole) (arg2 : Memref sig .tc .vmem S2000x1 .i32) (harg2 : arg2.IsWhole) (arg3 : Memref sig .tc .vmem S16x64 .f32) (harg3 : arg3.IsWhole) (arg4 : Memref sig .tc .vmem S16 .f32) (harg4 : arg4.IsWhole) (arg5 : Memref sig .tc .vmem S2x16 .f32) (harg5 : arg5.IsWhole) (arg6 : Memref sig .tc .vmem S2 .f32) (harg6 : arg6.IsWhole) (arg7 : Memref sig .tc .vmem S512x2 .f32) (harg7 : arg7.IsWhole) (arg8 : Memref sig .tc .vmem S512x64 .f32) (harg8 : arg8.IsWhole) (arg9 : Memref sig .tc .vmem S512x1 .f32) (harg9 : arg9.IsWhole)
    (x0 : Vec F S2000x64 .f32) (x1 : Vec F S2000x1 .i32) (x2 : Vec F S16x64 .f32) (x3 : Vec F S16 .f32) (x4 : Vec F S2x16 .f32) (x5 : Vec F S2 .f32)
    (o : Vec F S512x2 .f32) (s : Vec F S512x64 .f32) (n : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare o
        ∗ owns (c : Thread nD τ) arg8 fullShare s ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (if cond4_1 i then k4_pay6 (k4_pay4 x1 x0 (if cond4_0 i then k4_pay1 else s)) (k4_pay5 x1 (if cond4_0 i then k4_pay2 else n)) x2 x3 x4 x5 else o)
            ∗ owns (c : Thread nD τ) arg8 fullShare (k4_pay4 x1 x0 (if cond4_0 i then k4_pay1 else s)) ∗ owns (c : Thread nD τ) arg9 fullShare (k4_pay5 x1 (if cond4_0 i then k4_pay2 else n))) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9) K := by
  by_cases hc0 : cond4_0 i <;> by_cases hc1 : cond4_1 i
  · exact absurd ⟨hc0, hc1⟩ hne
  all_goals
    first | rw [if_neg hc1, if_pos hc0, if_pos hc0] | rw [if_pos hc1, if_neg hc0, if_neg hc0] | rw [if_neg hc1, if_neg hc0, if_neg hc0]
    simp only [cc4_kernel_eq_skeleton]; unfold cc4_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%fs, %hfs, HS⟩, ⟨%fn, %hfn, HN⟩, Hk⟩
    subst hf0 hf1 hf2 hf3 hf4 hf5 hf7 hfs hfn
    sl_exec (disch := first | exact hc0 | exact hc1)
    sl_step
    iapply Hk
    sl_unfold_run_names
    repeat rw [View.readCov_unit_zero _ hz2]
    simp only [View.readAt_eq_ld, View.ld_unit_zero (S := S2000x1) hz2, View.ld_unit_zero (S := S2000x64) hz2, View.ld_unit_zero (S := S512x64) hz2,
      View.ld_unit_zero (S := S512x1) hz2, View.ld_unit_zero (S := S16x64) hz2, View.ld_unit_zero (S := S2x16) hz2,
      View.ld_unit_zero (S := S16) hz1, View.ld_unit_zero (S := S2) hz1]
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H7]
    · iexists _; isplitr
      swap; · iexact H7
      ipureintro; first | exact read_store_whole _ _ hz2 _ _ _ | rfl
    isplitl [HS]
    · iexists _; isplitr
      swap; · iexact HS
      ipureintro; exact read_store_whole _ _ hz2 _ _ _
    iexists _; isplitr
    swap; · iexact HN
    ipureintro; exact read_store_whole _ _ hz2 _ _ _

theorem acc4_first (c : Dev nD) (t : Fin cfg4.N) (h0 : t.val = 0) :
    sums4 V c t.val t.isLt = k4_pay4 (iblk4 V c 1 t) (iblk4 V c 0 t) k4_pay1 ∧ cnts4 V c t.val t.isLt = k4_pay5 (iblk4 V c 1 t) k4_pay2 := by
  obtain ⟨_ | n, hn⟩ := t
  exacts [⟨rfl, rfl⟩, absurd h0 (Nat.succ_ne_zero n)]

theorem acc4_later (c : Dev nD) (t : Fin cfg4.N) (h0 : t.val ≠ 0) :
    sums4 V c t.val t.isLt = k4_pay4 (iblk4 V c 1 t) (iblk4 V c 0 t) (sums4 V c (t.val - 1) (Nat.lt_of_le_of_lt (Nat.sub_le _ _) t.isLt))
      ∧ cnts4 V c t.val t.isLt = k4_pay5 (iblk4 V c 1 t) (cnts4 V c (t.val - 1) (Nat.lt_of_le_of_lt (Nat.sub_le _ _) t.isLt)) := by
  obtain ⟨_ | n, hn⟩ := t
  exacts [absurd rfl h0, ⟨rfl, rfl⟩]

-- at tile t the kernel takes the accumulators from the recursion's values after tile t - 1 to those after tile t
theorem body_obligation4 (c : Dev nD) : BodyObligation (dat4 (F := F) V c) (defs₀ (F := F)) Variants.none () Set.univ := fun t => by
  rw [bigSep_W4, bigSep_W4]
  dsimp only
  show _ ⊢ wp _ _ _ (bodyAt4 t) _
  simp only [before4 V c t]
  rw [show (dat4 V c).Φ t.succ = Phi4 V c (t.val + 1) t.isLt from rfl, Phi4_succ]
  have hne : ¬(cond4_0 (grid4.coords t) ∧ cond4_1 (grid4.coords t)) := fun h => by
    have := (hcond4_0 t).mp h.1; have := (hcond4_1 t).mp h.2; omega
  by_cases hc0 : cond4_0 (grid4.coords t) <;> by_cases hc1 : cond4_1 (grid4.coords t)
  · exact absurd ⟨hc0, hc1⟩ hne
  all_goals
    first | simp only [idleAt4_6 t hc1, noFlush4_6 t hc1] | (simp only [liveAt4_6 t hc1]; rw [after4_6])
    have h0 := hc0; rw [hcond4_0] at h0
    first
    | rw [Phi4_castSucc V c t, Phi4_zero V c _ _ h0, PhiA4_eq, (acc4_first V c t h0).1, (acc4_first V c t h0).2]
    | rw [Phi4_castSucc V c t, Phi4_pos V c _ _ h0, (acc4_later V c t h0).1, (acc4_later V c t h0).2]
    unfold rest4
    first
    | iintro ⟨⟨⟨⟨%s, HS⟩, ⟨%n, HC⟩⟩, HR, Hg⟩, Ho, ⟨%d0, H0⟩, ⟨%d1, H1⟩, ⟨%d2, H2⟩, ⟨%d3, H3⟩, ⟨%d4, H4⟩, ⟨%d5, H5⟩, ⟨%d6, H6⟩⟩
    | iintro ⟨⟨HS, HC, HR, Hg⟩, Ho, ⟨%d0, H0⟩, ⟨%d1, H1⟩, ⟨%d2, H2⟩, ⟨%d3, H3⟩, ⟨%d4, H4⟩, ⟨%d5, H5⟩, ⟨%d6, H6⟩⟩
    iapply (kernel4 c Set.univ (grid4.coords t) hne _ _ _ _ _ _ _ _ _ _ _ _ _ _ _ _ _ _
      (iblk4 V c 0 t) (iblk4 V c 1 t) (iblk4 V c 2 t) (iblk4 V c 3 t) (iblk4 V c 4 t) (iblk4 V c 5 t) _ _ _ _)
    first | rw [if_neg hc1, if_pos hc0, if_pos hc0] | rw [if_pos hc1, if_neg hc0, if_neg hc0] | rw [if_neg hc1, if_neg hc0, if_neg hc0]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HC]; · iexact HC
    iintro ⟨H0, H1, H2, H3, H4, H5, H6, HS, HC⟩
    isplitl [HS HC HR Hg]
    · isplitl [HS]; · iexact HS
      isplitl [HC]; · iexact HC
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    first | iexact H6 | (iexists _; iexact H6)

end Cert.KernelIdeal.Hand

end
-- ==== Proof.KI.Run.lean ====
import proofs.«409757_j13056700579878_4_alg».proof.Proof.KI.RunCond
import proofs.«409757_j13056700579878_4_alg».proof.Proof.KI.Region0
import proofs.«409757_j13056700579878_4_alg».proof.Proof.KI.Region1
import proofs.«409757_j13056700579878_4_alg».proof.Proof.KI.Region2
import proofs.«409757_j13056700579878_4_alg».proof.Proof.KI.Region3
import proofs.«409757_j13056700579878_4_alg».proof.Proof.KI.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev atRefs (W : Dev nD → Valuation τ sig (Elt F)) : (c : Dev nD) → (b : Ref sig .tc) → Buf (Elt F) ((c : Thread nD τ).loc b) :=
  fun c b => W c b

-- The buffer contents item by item: a region replaces its output array by what its tiles' results fold to, a host stretch applies its operations.
def o4 (c : Dev nD) : Buf (Elt F) ((c : Thread nD τ).loc main_v17) := (dat0 (atRefs (V3 m)) c).arrAt 7 cfg0.N
def X4 (c : Dev nD) : Valuation τ sig (Elt F) := Function.update (V3 m c) main_v17 (o4 m c)
def X5 (c : Dev nD) : Valuation τ sig (Elt F) := StableHlo.after hostOps1 (X4 m c)
def o6 (c : Dev nD) : Buf (Elt F) ((c : Thread nD τ).loc main_v21) := (dat1 (atRefs (X5 m)) c).arrAt 5 cfg1.N
def X6 (c : Dev nD) : Valuation τ sig (Elt F) := Function.update (X5 m c) main_v21 (o6 m c)
def X7 (c : Dev nD) : Valuation τ sig (Elt F) := StableHlo.after hostOps2 (X6 m c)
def X8 (c : Dev nD) : Valuation τ sig (Elt F) := StableHlo.after hostOps2_1 (X7 m c)
def o9 (c : Dev nD) : Buf (Elt F) ((c : Thread nD τ).loc main_v24) := (dat2 (atRefs (X8 m)) c).arrAt 7 cfg2.N
def X9 (c : Dev nD) : Valuation τ sig (Elt F) := Function.update (X8 m c) main_v24 (o9 m c)
def X10 (c : Dev nD) : Valuation τ sig (Elt F) := StableHlo.after hostOps3 (X9 m c)
def o11 (c : Dev nD) : Buf (Elt F) ((c : Thread nD τ).loc main_v28) := (dat3 (atRefs (X10 m)) c).arrAt 5 cfg3.N
def X11 (c : Dev nD) : Valuation τ sig (Elt F) := Function.update (X10 m c) main_v28 (o11 m c)
def o12 (c : Dev nD) : Buf (Elt F) ((c : Thread nD τ).loc main_v29) := (dat4 (atRefs (X11 m)) c).arrAt 6 cfg4.N
def X12 (c : Dev nD) : Valuation τ sig (Elt F) := Function.update (X11 m c) main_v29 (o12 m c)

def outs : Outs (F := F) := fun J r c =>
  match J with
  | 4 => X4 m c r
  | 6 => X6 m c r
  | 9 => X9 m c r
  | 11 => X11 m c r
  | 12 => X12 m c r
  | _ => V0 m c r

theorem outs4 (c : Dev nD) : outs m 4 main_v17 c = o4 m c := by show X4 m c main_v17 = _; exact Function.update_self ..
theorem outs6 (c : Dev nD) : outs m 6 main_v21 c = o6 m c := by show X6 m c main_v21 = _; exact Function.update_self ..
theorem outs9 (c : Dev nD) : outs m 9 main_v24 c = o9 m c := by show X9 m c main_v24 = _; exact Function.update_self ..
theorem outs11 (c : Dev nD) : outs m 11 main_v28 c = o11 m c := by show X11 m c main_v28 = _; exact Function.update_self ..
theorem outs12 (c : Dev nD) : outs m 12 main_v29 c = o12 m c := by show X12 m c main_v29 = _; exact Function.update_self ..

-- The conditional run's valuations, fed these outputs, are the contents above.
theorem V4_eq (c : Dev nD) : V4 m (outs m) c = X4 m c := congrArg (Function.update (V3 m c) main_v17) (outs4 m c)
theorem V5_eq (c : Dev nD) : V5 m (outs m) c = X5 m c := congrArg (StableHlo.after hostOps1) (V4_eq m c)
theorem V6_eq (c : Dev nD) : V6 m (outs m) c = X6 m c := by
  show Function.update (V5 m (outs m) c) main_v21 (outs m 6 main_v21 c) = _; rw [outs6, V5_eq]; rfl
theorem V8_eq (c : Dev nD) : V8 m (outs m) c = X8 m c :=
  congrArg (fun W => StableHlo.after hostOps2_1 (StableHlo.after hostOps2 W)) (V6_eq m c)
theorem V9_eq (c : Dev nD) : V9 m (outs m) c = X9 m c := by
  show Function.update (V8 m (outs m) c) main_v24 (outs m 9 main_v24 c) = _; rw [outs9, V8_eq]; rfl
theorem V10_eq (c : Dev nD) : V10 m (outs m) c = X10 m c := congrArg (StableHlo.after hostOps3) (V9_eq m c)
theorem V11_eq (c : Dev nD) : V11 m (outs m) c = X11 m c := by
  show Function.update (V10 m (outs m) c) main_v28 (outs m 11 main_v28 c) = _; rw [outs11, V10_eq]; rfl
theorem V12_eq (c : Dev nD) : V12 m (outs m) c = X12 m c := by
  show Function.update (V11 m (outs m) c) main_v29 (outs m 12 main_v29 c) = _; rw [outs12, V11_eq]; rfl

def pdats : (p : Fin 5) → (c : Dev nD) → Dat τ (Elt F) Unit ℕ (Pipeline.UD sig nD τ) ℕ (cfgs p) c
  | ⟨0, _⟩ => fun c => dat0 (atRefs (V3 m)) c
  | ⟨1, _⟩ => fun c => dat1 (atRefs (X5 m)) c
  | ⟨2, _⟩ => fun c => dat2 (atRefs (X8 m)) c
  | ⟨3, _⟩ => fun c => dat3 (atRefs (X10 m)) c
  | ⟨4, _⟩ => fun c => dat4 (atRefs (X11 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
-- A region that only replaces the contents of its own arrays: every other buffer is carried across unchanged.
def plainReg (p : Fin 5) (lf : Pipeline.LaunchFacts (nD := nD) (τ := τ) cfgs p) (Ve Vx : Dev nD → Valuation τ sig (Elt F))
    (hb : ∀ c, BodyObligation (pdats m p c) (defs₀ (F := F)) 𝒱₀ () Set.univ)
    (hq : ∀ c w, (pdats m p c).q w = fullShare) (ho : ∀ c t, (pdats m p c).owed t = 0) (hrec : ∀ c, (pdats m p c).recorded 0 = Set.univ)
    (hA : ∀ c w, (pdats m p c).A w = atRefs Ve c (Pipeline.arrRef (pcfgs (F := F) p).spec w))
    (hΦ₀ : ∀ c, (pdats m p c).Φ 0 = Pipeline.ΦA (pcfgs (F := F) p).spec c)
    (hΦN : ∀ c, (pdats m p c).Φ (Fin.last _) ⊢ (Pipeline.ΦA (pcfgs (F := F) p).spec c : sProp 𝕄))
    (hF : ∀ c w, (pdats m p c).arrAt w (cfgs p).N = atRefs Vx c (Pipeline.arrRef (pcfgs (F := F) p).spec w))
    (hr : ∀ c b, b ∉ Finset.univ.image (Pipeline.arrRef (pcfgs (F := F) p).spec) → atRefs Vx c b = atRefs Ve c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Ve c) ∗ R c)
  post c := iprop(StableHlo.held (c : Thread nD τ) (Pipeline.ucRefs τ sig) (Vx c) ∗ R c)
  X c := iprop(∃ r, prngReg c r)
  Y c := iprop(∃ r, prngReg c r)
  Z c := Pipeline.unscopedRest (Ix := Unit) (Name := ℕ) (U := Pipeline.UD sig nD τ) (Lvl := ℕ) (pcfgs (F := F) p).spec c (atRefs Ve c)
  hentry c := by
    rw [Pipeline.ownSems0_none]
    have hsplit := Pipeline.arrays_of_unscopedBufs (p := p) (pcfgs (F := F)) adm (pdats m) lf.win lf.arr_whole c
      ((pdats m p c).share_full (hq c)) (atRefs Ve c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho c]
      icases HO with ⟨%W, HO⟩; iexists W; isplitr; · ipureintro; exact fun x _ => Or.inl (hrec c ▸ Set.mem_univ x)
      iexact HO
    isplitl [Hp]; · iexact Hp
    iexact Hrest
  hin c := by
    rw [hΦ₀ c]; unfold Pipeline.ΦA
    iintro ⟨Hp, -, Hr⟩
    isplitl [Hr]; · iexact Hr
    iexact Hp
  hout c := by
    rw [Pipeline.ownSems0_none]
    refine (hΦN c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := Pipeline.UD sig nD τ) (Lvl := ℕ)
      lf.win lf.arr_whole c (pdats m) ((pdats m p c).share_full (hq c))
      (atRefs Ve c) (atRefs Vx c) ((pdats m p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c]
    icases HO with ⟨%W, -, HO⟩; iexists W; iexact HO

-- At a region's exit an input array holds its entry contents, the output array what the tiles' results fold to, and no other buffer has moved.
theorem hF0 (c : Dev nD) (w : Fin cfg0.W) : (pdats m 0 c).arrAt w cfg0.N = atRefs (X4 m) c (Pipeline.arrRef spec0 w) := by
  by_cases hw : w = 7
  · subst hw
    show _ = X4 m c main_v17
    unfold X4; rw [Function.update_self]; rfl
  · have key : ∀ w : Fin cfg0.W, w ≠ 7 → (cfg0.win w).isOut = false ∧ Pipeline.arrRef spec0 w ∉ ([main_v17] : List (Ref sig .tc)) := by decide
    rw [(pdats m 0 c).arrAt_in w (key w hw).1]
    show (dat0 (atRefs (V3 m)) c).A w = X4 m c (Pipeline.arrRef spec0 w)
    rw [A_eq0, ← V4_eq, V4_of m (outs m) c _ (key w hw).2]

theorem hrest0 (c : Dev nD) : ∀ b, b ∉ Finset.univ.image (Pipeline.arrRef spec0) → atRefs (X4 m) c b = atRefs (V3 m) c b :=
  fun b hb => by
    show X4 m c b = (V3 m) c b
    rw [← V4_eq, V4_of m (outs m) c b (fun h => hb (by
      rw [List.mem_singleton] at h; subst h
      exact Finset.mem_image.mpr ⟨7, Finset.mem_univ _, rfl⟩))]

def reg0 : Pipeline.RegionSeg (pcfgs (F := F)) adm (pdats m) () defs₀ 𝒱₀ L lv 0 :=
  plainReg m 0 launch0 (V3 m) (X4 m) (body_obligation0 _) (fun _ _ => rfl) (fun _ _ => rfl) (fun _ => rfl) (A_eq0 _) (fun c => Phi_eq0 _ c 0) (fun c => Entails.of_eq (Phi_eq0 _ c _)) (hF0 m) (hrest0 m)

theorem hF1 (c : Dev nD) (w : Fin cfg1.W) : (pdats m 1 c).arrAt w cfg1.N = atRefs (X6 m) c (Pipeline.arrRef spec1 w) := by
  by_cases hw : w = 5
  · subst hw
    show _ = X6 m c main_v21
    unfold X6; rw [Function.update_self]; rfl
  · have key : ∀ w : Fin cfg1.W, w ≠ 5 → (cfg1.win w).isOut = false ∧ Pipeline.arrRef spec1 w ∉ ([main_v21] : List (Ref sig .tc)) := by decide
    rw [(pdats m 1 c).arrAt_in w (key w hw).1]
    show (dat1 (atRefs (X5 m)) c).A w = X6 m c (Pipeline.arrRef spec1 w)
    rw [A_eq1, ← V6_eq, V6_of m (outs m) c _ (key w hw).2, V5_eq]

theorem hrest1 (c : Dev nD) : ∀ b, b ∉ Finset.univ.image (Pipeline.arrRef spec1) → atRefs (X6 m) c b = atRefs (X5 m) c b :=
  fun b hb => by
    show X6 m c b = (X5 m) c b
    rw [← V6_eq, V6_of m (outs m) c b (fun h => hb (by
      rw [List.mem_singleton] at h; subst h
      exact Finset.mem_image.mpr ⟨5, Finset.mem_univ _, rfl⟩)), V5_eq]

def reg1 : Pipeline.RegionSeg (pcfgs (F := F)) adm (pdats m) () defs₀ 𝒱₀ L lv 1 :=
  plainReg m 1 launch1 (X5 m) (X6 m) (body_obligation1 _) (fun _ _ => rfl) (fun _ _ => rfl) (fun _ => rfl) (A_eq1 _) (fun c => Phi_eq1 _ c 0) (fun c => Entails.of_eq (Phi_eq1 _ c _)) (hF1 m) (hrest1 m)

theorem hF2 (c : Dev nD) (w : Fin cfg2.W) : (pdats m 2 c).arrAt w cfg2.N = atRefs (X9 m) c (Pipeline.arrRef spec2 w) := by
  by_cases hw : w = 7
  · subst hw
    show _ = X9 m c main_v24
    unfold X9; rw [Function.update_self]; rfl
  · have key : ∀ w : Fin cfg2.W, w ≠ 7 → (cfg2.win w).isOut = false ∧ Pipeline.arrRef spec2 w ∉ ([main_v24] : List (Ref sig .tc)) := by decide
    rw [(pdats m 2 c).arrAt_in w (key w hw).1]
    show (dat2 (atRefs (X8 m)) c).A w = X9 m c (Pipeline.arrRef spec2 w)
    rw [A_eq2, ← V9_eq, V9_of m (outs m) c _ (key w hw).2, V8_eq]

theorem hrest2 (c : Dev nD) : ∀ b, b ∉ Finset.univ.image (Pipeline.arrRef spec2) → atRefs (X9 m) c b = atRefs (X8 m) c b :=
  fun b hb => by
    show X9 m c b = (X8 m) c b
    rw [← V9_eq, V9_of m (outs m) c b (fun h => hb (by
      rw [List.mem_singleton] at h; subst h
      exact Finset.mem_image.mpr ⟨7, Finset.mem_univ _, rfl⟩)), V8_eq]

def reg2 : Pipeline.RegionSeg (pcfgs (F := F)) adm (pdats m) () defs₀ 𝒱₀ L lv 2 :=
  plainReg m 2 launch2 (X8 m) (X9 m) (body_obligation2 _) (fun _ _ => rfl) (fun _ _ => rfl) (fun _ => rfl) (A_eq2 _) (fun c => Phi_eq2 _ c 0) (fun c => Entails.of_eq (Phi_eq2 _ c _)) (hF2 m) (hrest2 m)

theorem hF3 (c : Dev nD) (w : Fin cfg3.W) : (pdats m 3 c).arrAt w cfg3.N = atRefs (X11 m) c (Pipeline.arrRef spec3 w) := by
  by_cases hw : w = 5
  · subst hw
    show _ = X11 m c main_v28
    unfold X11; rw [Function.update_self]; rfl
  · have key : ∀ w : Fin cfg3.W, w ≠ 5 → (cfg3.win w).isOut = false ∧ Pipeline.arrRef spec3 w ∉ ([main_v28] : List (Ref sig .tc)) := by decide
    rw [(pdats m 3 c).arrAt_in w (key w hw).1]
    show (dat3 (atRefs (X10 m)) c).A w = X11 m c (Pipeline.arrRef spec3 w)
    rw [A_eq3, ← V11_eq, V11_of m (outs m) c _ (key w hw).2, V10_eq]

theorem hrest3 (c : Dev nD) : ∀ b, b ∉ Finset.univ.image (Pipeline.arrRef spec3) → atRefs (X11 m) c b = atRefs (X10 m) c b :=
  fun b hb => by
    show X11 m c b = (X10 m) c b
    rw [← V11_eq, V11_of m (outs m) c b (fun h => hb (by
      rw [List.mem_singleton] at h; subst h
      exact Finset.mem_image.mpr ⟨5, Finset.mem_univ _, rfl⟩)), V10_eq]

def reg3 : Pipeline.RegionSeg (pcfgs (F := F)) adm (pdats m) () defs₀ 𝒱₀ L lv 3 :=
  plainReg m 3 launch3 (X10 m) (X11 m) (body_obligation3 _) (fun _ _ => rfl) (fun _ _ => rfl) (fun _ => rfl) (A_eq3 _) (fun c => Phi_eq3 _ c 0) (fun c => Entails.of_eq (Phi_eq3 _ c _)) (hF3 m) (hrest3 m)

theorem hF4 (c : Dev nD) (w : Fin cfg4.W) : (pdats m 4 c).arrAt w cfg4.N = atRefs (X12 m) c (Pipeline.arrRef spec4 w) := by
  by_cases hw : w = 6
  · subst hw
    show _ = X12 m c main_v29
    unfold X12; rw [Function.update_self]; rfl
  · have key : ∀ w : Fin cfg4.W, w ≠ 6 → (cfg4.win w).isOut = false ∧ Pipeline.arrRef spec4 w ∉ ([main_v29] : List (Ref sig .tc)) := by decide
    rw [(pdats m 4 c).arrAt_in w (key w hw).1]
    show (dat4 (atRefs (X11 m)) c).A w = X12 m c (Pipeline.arrRef spec4 w)
    rw [A_eq4, ← V12_eq, V12_of m (outs m) c _ (key w hw).2, V11_eq]

theorem hrest4 (c : Dev nD) : ∀ b, b ∉ Finset.univ.image (Pipeline.arrRef spec4) → atRefs (X12 m) c b = atRefs (X11 m) c b :=
  fun b hb => by
    show X12 m c b = (X11 m) c b
    rw [← V12_eq, V12_of m (outs m) c b (fun h => hb (by
      rw [List.mem_singleton] at h; subst h
      exact Finset.mem_image.mpr ⟨6, Finset.mem_univ _, rfl⟩)), V11_eq]

def reg4 : Pipeline.RegionSeg (pcfgs (F := F)) adm (pdats m) () defs₀ 𝒱₀ L lv 4 :=
  plainReg m 4 launch4 (X11 m) (X12 m) (body_obligation4 _) (fun _ _ => rfl) (fun _ _ => rfl) (fun _ => rfl) (A_eq4 _) (Phi4_first _) (Phi4_last _) (hF4 m) (hrest4 m)

set_option backward.isDefEq.respectTransparency.types false in
-- @main runs to the end: the result array ends at what the last region leaves in it, and every argument array as launched.
theorem run_main : θ_run defs (onTc (τ := τ) (main (F := F))) ⟨m, fun _ => 0, ρ⟩ (fun r => ∀ c : Dev nD,
      r.2.mem ((c.tc : Thread nD τ).loc main_v29) = o12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  have h := run_cond (F := F) m (EP := embL) (ι := ()) (𝒱₀ := 𝒱₀) (L := L) (lv := lv) (hL := fun _ _ => rfl) (ρ := ρ)
    (outs := outs m) (pdats := pdats m) (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE5 := fun c => by iintro ⟨-, H⟩; iexact H)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V8_eq]; exact .rfl) (hpost2 := fun c => by rw [V9_eq]; exact .rfl)
    (R3 := reg3 m) (hpre3 := fun c => by rw [V10_eq]; exact .rfl) (hpost3 := fun c => by rw [V11_eq]; exact .rfl)
    (R4 := reg4 m) (hpre4 := fun c => by rw [V11_eq]; exact .rfl) (hpost4 := fun c => by rw [V12_eq]; exact .rfl)
  refine (θ_run defs _ _).mono (fun r hr c => ?_) h
  obtain ⟨a0, a1, a2, a3, a4, a5, a6, a7, a8, a9, a10, a11, a12, a13, a14, a15, o⟩ := hr c
  exact ⟨o.trans (outs12 m c), a0, a1, a2, a3, a4, a5, a6, a7, a8, a9, a10, a11, a12, a13, a14, a15⟩

end Cert.KernelIdeal.Hand

end
-- ==== Proof.KI.Spec.lean ====
import proofs.«409757_j13056700579878_4_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

def rowsAt {α : Type} (B n k : Nat) (hn : 0 < n) (x : (⟨2, ![n, k]⟩ : Shape).Idx → α) (t : Nat) :
    (⟨2, ![B, k]⟩ : Shape).Idx → α :=
  fun y => x (ix2 ⟨(B * t + (y 0).val) % n, Nat.mod_lt _ hn⟩ ⟨(y 1).val, idx2_lt1 y⟩)

def edgeWhole (sf df : FVec F S800000x64 .f32) (ea : FVec F S800000x8 .f32) (ws wd : FVec F S4x64 .f32)
    (we : FVec F S4x8 .f32) (b : FVec F S4 .f32) : FVec F S800000x4 .f32 :=
  fun j => k0_pay1 (rowsAt 6400 800000 64 (by decide) sf ((j 0).val / 6400)) ws
      (rowsAt 6400 800000 64 (by decide) df ((j 0).val / 6400)) wd
      (rowsAt 6400 800000 8 (by decide) ea ((j 0).val / 6400)) we b
      (ix2 ⟨(j 0).val % 6400, Nat.mod_lt _ (by decide)⟩ ⟨(j 1).val, idx2_lt1 j⟩)

def nodeWhole (h : FVec F S50000x64 .f32) (agg : FVec F S50000x4 .f32) (wh : FVec F S64x64 .f32)
    (wa : FVec F S64x4 .f32) (b : FVec F S64 .f32) : FVec F S50000x64 .f32 :=
  fun j => k1_pay1 (rowsAt 2000 50000 64 (by decide) h ((j 0).val / 2000)) wh
      (rowsAt 2000 50000 4 (by decide) agg ((j 0).val / 2000)) wa b
      (ix2 ⟨(j 0).val % 2000, Nat.mod_lt _ (by decide)⟩ ⟨(j 1).val, idx2_lt1 j⟩)

def poolSums (h : FVec F S50000x64 .f32) (bt : Vec F S50000x1 .i32) : Nat → FVec F S512x64 .f32
  | 0 => k4_pay4 (rowsAt 2000 50000 1 (by decide) bt 0) (rowsAt 2000 50000 64 (by decide) h 0) k4_pay1
  | t + 1 => k4_pay4 (rowsAt 2000 50000 1 (by decide) bt (t + 1)) (rowsAt 2000 50000 64 (by decide) h (t + 1)) (poolSums h bt t)

def poolCnts (bt : Vec F S50000x1 .i32) : Nat → FVec F S512x1 .f32
  | 0 => k4_pay5 (rowsAt 2000 50000 1 (by decide) bt 0) k4_pay2
  | t + 1 => k4_pay5 (rowsAt 2000 50000 1 (by decide) bt (t + 1)) (poolCnts bt t)

def poolWhole (h : FVec F S50000x64 .f32) (bt : Vec F S50000x1 .i32) (fcw : FVec F S16x64 .f32) (fcb : FVec F S16 .f32)
    (fzw : FVec F S2x16 .f32) (fzb : FVec F S2 .f32) : FVec F S512x2 .f32 :=
  k4_pay6 (poolSums h bt 24) (poolCnts (F := F) bt 24) fcw fcb fzw fzb

end Cert.KernelIdeal.Hand

end
-- ==== Proof.KI.EdgeValue.lean ====
import proofs.«409757_j13056700579878_4_alg».proof.Proof.KI.Spec
import Idealize.ShloMosaic.Lib.ValueIdx

noncomputable section

namespace Cert.KernelIdeal.Hand

open Cert.KernelIdeal.Gen
open Idealize.ShloMosaic Idealize.ShloMosaic.ValueIdx

variable {F : FTy → Type} [FloatOps F]

-- An element of the block at block index `(t, 0)` sits at row `B·t + y₀`, column `y₁` of the array.
theorem tile {I : Fin 2 → ℕ} {t B k j0 j1 y0 y1 : ℕ} (e : I = ![t, 0]) (h0 : j0 = I 0 * B + y0) (h1 : j1 = I 1 * k + y1) :
    j0 = B * t + y0 ∧ j1 = y1 := by
  subst e h0 h1
  exact ⟨by show t * B + y0 = _; rw [Nat.mul_comm], by show 0 * k + y1 = _; rw [Nat.zero_mul, Nat.zero_add]⟩

-- Row `B·t + y₀` is below `n`, so it is its own remainder by `n`.
theorem rows_eq {α : Type} {B n k : ℕ} (hn : 0 < n) (x : (⟨2, ![n, k]⟩ : Shape).Idx → α) (t : ℕ)
    (y : (⟨2, ![B, k]⟩ : Shape).Idx) (j : (⟨2, ![n, k]⟩ : Shape).Idx)
    (h : (j 0).val = B * t + (y 0).val ∧ (j 1).val = (y 1).val) : rowsAt B n k hn x t y = x j :=
  congrArg x (funext fun
    | ⟨0, _⟩ => Fin.ext (by show _ % n = (j 0).val; rw [← h.1, Nat.mod_eq_of_lt (idx2_lt0 j)])
    | ⟨1, _⟩ => Fin.ext h.2.symm)

-- A block at block index 0 as large as its array is the array.
theorem whole_eq {α : Type} {s : Shape} (x : s.Idx → α) (y j : s.Idx) (h : ∀ a, (j a : ℕ) = y a) : x y = x j :=
  congrArg x (funext fun a => Fin.ext (h a).symm)

-- Row `6400·t + y₀` has quotient `t` and remainder `y₀` by 6400.
theorem edgeWhole_at (sf df : FVec F S800000x64 .f32) (ea : FVec F S800000x8 .f32) (ws wd : FVec F S4x64 .f32)
    (we : FVec F S4x8 .f32) (b : FVec F S4 .f32) (j : S800000x4.Idx) (t : Nat) (y : S6400x4.Idx)
    (h : (j 0).val = 6400 * t + (y 0).val ∧ (j 1).val = (y 1).val) :
    edgeWhole sf df ea ws wd we b j
      = k0_pay1 (rowsAt 6400 800000 64 (by decide) sf t) ws (rowsAt 6400 800000 64 (by decide) df t) wd
          (rowsAt 6400 800000 8 (by decide) ea t) we b y := by
  have := idx2_lt0 y
  have hm : (j 0).val % 6400 = (y 0).val := by omega
  obtain rfl : (j 0).val / 6400 = t := by omega
  exact congrArg (k0_pay1 _ _ _ _ _ _ _) (funext fun | ⟨0, _⟩ => Fin.ext hm | ⟨1, _⟩ => Fin.ext h.2)

end Cert.KernelIdeal.Hand

end
-- ==== Proof.KI.Value0.lean ====
import proofs.«409757_j13056700579878_4_alg».proof.Proof.KI.Region0
import proofs.«409757_j13056700579878_4_alg».proof.Proof.KI.Spec
import proofs.«409757_j13056700579878_4_alg».proof.Proof.KI.EdgeValue
import Idealize.ShloMosaic.Lib.Pipeline.Value
import Idealize.ShloMosaic.Lib.ValueIdx
import Idealize.ShloMosaic.Lib.Tactic

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

theorem idx0 : ∀ t : Fin cfg0.N, win0_0.index t = ![t.val, 0] ∧ win0_1.index t = ![t.val, 0] ∧ win0_2.index t = ![t.val, 0]
    ∧ win0_3.index t = 0 ∧ win0_4.index t = 0 ∧ win0_5.index t = 0 ∧ win0_6.index t = 0 ∧ win0_7.index t = ![t.val, 0] :=
  (by decide +kernel : ∀ t : Fin grid0.N, _)

-- Row `r` of the output is row `r % 6400` of the block of point `r / 6400`.
theorem rows_cover0 (i : S800000x4.Idx) : ∃ t : Fin cfg0.N, (cfg0.win 7).flush t = true ∧ i ∈ ((cfg0.win 7).blk t).view.set := by
  have := idx2_lt0 i
  let t : Fin cfg0.N := ⟨(i 0).val / 6400, Nat.lt_of_lt_of_eq (by omega) N_0.symm⟩
  let y : S6400x4.Idx := ix2 ⟨(i 0).val % 6400, Nat.mod_lt _ (by decide)⟩ (i 1)
  obtain ⟨h0, h1⟩ := tile (idx0 t).2.2.2.2.2.2.2 (win0_7.rect_emb_val t y 0) (win0_7.rect_emb_val t y 1)
  exact ⟨t, flush0_7 t, (funext fun | ⟨0, _⟩ => Fin.ext (h0.trans (Nat.div_add_mod _ _)) | ⟨1, _⟩ => Fin.ext h1 :
    ((cfg0.win 7).blk t).view.emb y = i) ▸ View.emb_mem_set _ y⟩

-- The value at point `t` is band `t` of `edgeWhole`: its blocks are bands `t` of the three edge arrays and the weights whole.
theorem final0 (c : Dev nD) : (dat0 V c).arrAt 7 cfg0.N
    = edgeWhole (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 V c).arrAt_eq_of_cover 7 _ (fun t _ => by
    obtain ⟨e0, e1, e2, e3, e4, e5, e6, e7⟩ := idx0 t
    funext y
    refine ((congrFun (after0_out V c t) _).trans (Eq.symm ?_)).trans
      (edgeWhole_at _ _ _ _ _ _ _ _ _ y (tile e7 (win0_7.rect_emb_val t y 0) (win0_7.rect_emb_val t y 1))).symm
    congr 1 <;> funext z
    · exact rows_eq _ _ _ z _ (tile e0 (win0_0.rect_emb_val t z 0) (win0_0.rect_emb_val t z 1))
    · exact whole_eq _ z _ fun a => win0_3.rect_emb_val_of_index_zero t a (congrFun e3 a) z
    · exact rows_eq _ _ _ z _ (tile e1 (win0_1.rect_emb_val t z 0) (win0_1.rect_emb_val t z 1))
    · exact whole_eq _ z _ fun a => win0_4.rect_emb_val_of_index_zero t a (congrFun e4 a) z
    · exact rows_eq _ _ _ z _ (tile e2 (win0_2.rect_emb_val t z 0) (win0_2.rect_emb_val t z 1))
    · exact whole_eq _ z _ fun a => win0_5.rect_emb_val_of_index_zero t a (congrFun e5 a) z
    · exact whole_eq _ z _ fun a => win0_6.rect_emb_val_of_index_zero t a (congrFun e6 a) z) rows_cover0

end Cert.KernelIdeal.Hand

end
-- ==== Proof.KI.Value1.lean ====
import proofs.«409757_j13056700579878_4_alg».proof.Proof.KI.Region1
import proofs.«409757_j13056700579878_4_alg».proof.Proof.KI.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

variable {F : FTy → Type} [FloatOps F]

variable (V : (c : Dev nD) → (b : Ref sig .tc) → Buf (Elt F) ((c : Thread nD τ).loc b))

-- An element of the block at block index `(t, 0)` sits at row `B·t + y₀`, column `y₁` of the array.
private theorem tile {I : Fin 2 → ℕ} {t B k j0 j1 y0 y1 : ℕ} (e : I = ![t, 0]) (h0 : j0 = I 0 * B + y0) (h1 : j1 = I 1 * k + y1) :
    j0 = B * t + y0 ∧ j1 = y1 := by
  subst e h0 h1
  exact ⟨by show t * B + y0 = _; rw [Nat.mul_comm], by show 0 * k + y1 = _; rw [Nat.zero_mul, Nat.zero_add]⟩

-- Row `B·t + y₀` is below `n`, so it is its own remainder by `n`.
private theorem rows_eq {α : Type} {B n k : ℕ} (hn : 0 < n) (x : (⟨2, ![n, k]⟩ : Shape).Idx → α) (t : ℕ)
    (y : (⟨2, ![B, k]⟩ : Shape).Idx) (j : (⟨2, ![n, k]⟩ : Shape).Idx)
    (h : (j 0).val = B * t + (y 0).val ∧ (j 1).val = (y 1).val) : rowsAt B n k hn x t y = x j :=
  congrArg x (funext fun
    | ⟨0, _⟩ => Fin.ext (by show _ % n = (j 0).val; rw [← h.1, Nat.mod_eq_of_lt (idx2_lt0 j)])
    | ⟨1, _⟩ => Fin.ext h.2.symm)

-- A block at block index 0 as large as its array is the array.
private theorem whole_eq {α : Type} {s : Shape} (x : s.Idx → α) (y j : s.Idx) (h : ∀ a, (j a : ℕ) = y a) : x y = x j :=
  congrArg x (funext fun a => Fin.ext (h a).symm)

theorem idx1 : ∀ t : Fin cfg1.N, win1_0.index t = ![t.val, 0] ∧ win1_1.index t = ![t.val, 0] ∧ win1_2.index t = 0
    ∧ win1_3.index t = 0 ∧ win1_4.index t = 0 ∧ win1_5.index t = ![t.val, 0] :=
  (by decide +kernel : ∀ t : Fin grid1.N, _)

-- Row `r` of the output is row `r % 2000` of the block of tile `r / 2000`.
theorem rows_cover1 (i : S50000x64.Idx) : ∃ t : Fin cfg1.N, (cfg1.win 5).flush t = true ∧ i ∈ ((cfg1.win 5).blk t).view.set := by
  have := idx2_lt0 i
  let t : Fin cfg1.N := ⟨(i 0).val / 2000, Nat.lt_of_lt_of_eq (by omega) N_1.symm⟩
  let y : S2000x64.Idx := ix2 ⟨(i 0).val % 2000, Nat.mod_lt _ (by decide)⟩ (i 1)
  obtain ⟨h0, h1⟩ := tile (idx1 t).2.2.2.2.2 (win1_5.rect_emb_val t y 0) (win1_5.rect_emb_val t y 1)
  exact ⟨t, flush1_5 t, (funext fun | ⟨0, _⟩ => Fin.ext (h0.trans (Nat.div_add_mod _ _)) | ⟨1, _⟩ => Fin.ext h1 :
    ((cfg1.win 5).blk t).view.emb y = i) ▸ View.emb_mem_set _ y⟩

-- Row `2000·t + y₀` has quotient `t` and remainder `y₀` by 2000.
theorem nodeWhole_at1 (h : FVec F S50000x64 .f32) (agg : FVec F S50000x4 .f32) (wh : FVec F S64x64 .f32)
    (wa : FVec F S64x4 .f32) (b : FVec F S64 .f32) (i : S50000x64.Idx) (t : Nat) (y : S2000x64.Idx)
    (hi : (i 0).val = 2000 * t + (y 0).val ∧ (i 1).val = (y 1).val) :
    nodeWhole h agg wh wa b i
      = k1_pay1 (rowsAt 2000 50000 64 (by decide) h t) wh (rowsAt 2000 50000 4 (by decide) agg t) wa b y := by
  have := idx2_lt0 y
  have hm : (i 0).val % 2000 = (y 0).val := by omega
  obtain rfl : (i 0).val / 2000 = t := by omega
  exact congrArg (k1_pay1 _ _ _ _ _) (funext fun | ⟨0, _⟩ => Fin.ext hm | ⟨1, _⟩ => Fin.ext hi.2)

-- The value at tile `t` is band `t` of `nodeWhole`: its blocks are rows `2000·t …` of h and agg and the weights whole.
theorem final1 (c : Dev nD) :
    (dat1 V c).arrAt 5 cfg1.N = nodeWhole (V c (Pipeline.arrRef spec1 0)) (V c (Pipeline.arrRef spec1 1))
      (V c (Pipeline.arrRef spec1 2)) (V c (Pipeline.arrRef spec1 3)) (V c (Pipeline.arrRef spec1 4)) :=
  (dat1 V c).arrAt_eq_of_cover 5 _ (fun t _ => by
    obtain ⟨e0, e1, e2, e3, e4, e5⟩ := idx1 t
    funext y
    refine ((congrFun (after1_out V c t) _).trans (Eq.symm ?_)).trans
      (nodeWhole_at1 _ _ _ _ _ _ _ y (tile e5 (win1_5.rect_emb_val t y 0) (win1_5.rect_emb_val t y 1))).symm
    congr 1 <;> funext z
    · exact rows_eq _ _ _ z _ (tile e0 (win1_0.rect_emb_val t z 0) (win1_0.rect_emb_val t z 1))
    · exact whole_eq _ z _ fun a => win1_2.rect_emb_val_of_index_zero t a (congrFun e2 a) z
    · exact rows_eq _ _ _ z _ (tile e1 (win1_1.rect_emb_val t z 0) (win1_1.rect_emb_val t z 1))
    · exact whole_eq _ z _ fun a => win1_3.rect_emb_val_of_index_zero t a (congrFun e3 a) z
    · exact whole_eq _ z _ fun a => win1_4.rect_emb_val_of_index_zero t a (congrFun e4 a) z) rows_cover1

end Cert.KernelIdeal.Hand

end
-- ==== Proof.KI.Value2.lean ====
import proofs.«409757_j13056700579878_4_alg».proof.Proof.KI.Region2
import proofs.«409757_j13056700579878_4_alg».proof.Proof.KI.Spec
import proofs.«409757_j13056700579878_4_alg».proof.Proof.KI.EdgeValue
import Idealize.ShloMosaic.Lib.Pipeline.Value
import Idealize.ShloMosaic.Lib.ValueIdx
import Idealize.ShloMosaic.Lib.Tactic

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

theorem idx2 : ∀ t : Fin cfg2.N, win2_0.index t = ![t.val, 0] ∧ win2_1.index t = ![t.val, 0] ∧ win2_2.index t = ![t.val, 0]
    ∧ win2_3.index t = 0 ∧ win2_4.index t = 0 ∧ win2_5.index t = 0 ∧ win2_6.index t = 0 ∧ win2_7.index t = ![t.val, 0] :=
  (by decide +kernel : ∀ t : Fin grid2.N, _)

-- Row `r` of the output is row `r % 6400` of the block of point `r / 6400`.
theorem rows_cover2 (i : S800000x4.Idx) : ∃ t : Fin cfg2.N, (cfg2.win 7).flush t = true ∧ i ∈ ((cfg2.win 7).blk t).view.set := by
  have := idx2_lt0 i
  let t : Fin cfg2.N := ⟨(i 0).val / 6400, Nat.lt_of_lt_of_eq (by omega) N_2.symm⟩
  let y : S6400x4.Idx := ix2 ⟨(i 0).val % 6400, Nat.mod_lt _ (by decide)⟩ (i 1)
  obtain ⟨h0, h1⟩ := tile (idx2 t).2.2.2.2.2.2.2 (win2_7.rect_emb_val t y 0) (win2_7.rect_emb_val t y 1)
  exact ⟨t, flush2_7 t, (funext fun | ⟨0, _⟩ => Fin.ext (h0.trans (Nat.div_add_mod _ _)) | ⟨1, _⟩ => Fin.ext h1 :
    ((cfg2.win 7).blk t).view.emb y = i) ▸ View.emb_mem_set _ y⟩

-- The value at point `t` is band `t` of `edgeWhole`: its blocks are bands `t` of the three edge arrays and the weights whole.
theorem final2 (c : Dev nD) : (dat2 V c).arrAt 7 cfg2.N
    = edgeWhole (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (dat2 V c).arrAt_eq_of_cover 7 _ (fun t _ => by
    obtain ⟨e0, e1, e2, e3, e4, e5, e6, e7⟩ := idx2 t
    funext y
    refine ((congrFun (after2_out V c t) _).trans (Eq.symm ?_)).trans
      (edgeWhole_at _ _ _ _ _ _ _ _ _ y (tile e7 (win2_7.rect_emb_val t y 0) (win2_7.rect_emb_val t y 1))).symm
    show _ = k0_pay1 _ _ _ _ _ _ _ _
    congr 1 <;> funext z
    · exact rows_eq _ _ _ z _ (tile e0 (win2_0.rect_emb_val t z 0) (win2_0.rect_emb_val t z 1))
    · exact whole_eq _ z _ fun a => win2_3.rect_emb_val_of_index_zero t a (congrFun e3 a) z
    · exact rows_eq _ _ _ z _ (tile e1 (win2_1.rect_emb_val t z 0) (win2_1.rect_emb_val t z 1))
    · exact whole_eq _ z _ fun a => win2_4.rect_emb_val_of_index_zero t a (congrFun e4 a) z
    · exact rows_eq _ _ _ z _ (tile e2 (win2_2.rect_emb_val t z 0) (win2_2.rect_emb_val t z 1))
    · exact whole_eq _ z _ fun a => win2_5.rect_emb_val_of_index_zero t a (congrFun e5 a) z
    · exact whole_eq _ z _ fun a => win2_6.rect_emb_val_of_index_zero t a (congrFun e6 a) z) rows_cover2

end Cert.KernelIdeal.Hand

end
-- ==== Proof.KI.Value3.lean ====
import proofs.«409757_j13056700579878_4_alg».proof.Proof.KI.Region3
import proofs.«409757_j13056700579878_4_alg».proof.Proof.KI.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen

variable {F : FTy → Type} [FloatOps F]

variable (V : (c : Dev nD) → (b : Ref sig .tc) → Buf (Elt F) ((c : Thread nD τ).loc b))

-- An element of the block at block index `(t, 0)` sits at row `B·t + y₀`, column `y₁` of the array.
private theorem tile {I : Fin 2 → ℕ} {t B k j0 j1 y0 y1 : ℕ} (e : I = ![t, 0]) (h0 : j0 = I 0 * B + y0) (h1 : j1 = I 1 * k + y1) :
    j0 = B * t + y0 ∧ j1 = y1 := by
  subst e h0 h1
  exact ⟨by show t * B + y0 = _; rw [Nat.mul_comm], by show 0 * k + y1 = _; rw [Nat.zero_mul, Nat.zero_add]⟩

-- Row `B·t + y₀` is below `n`, so it is its own remainder by `n`.
private theorem rows_eq {α : Type} {B n k : ℕ} (hn : 0 < n) (x : (⟨2, ![n, k]⟩ : Shape).Idx → α) (t : ℕ)
    (y : (⟨2, ![B, k]⟩ : Shape).Idx) (j : (⟨2, ![n, k]⟩ : Shape).Idx)
    (h : (j 0).val = B * t + (y 0).val ∧ (j 1).val = (y 1).val) : rowsAt B n k hn x t y = x j :=
  congrArg x (funext fun
    | ⟨0, _⟩ => Fin.ext (by show _ % n = (j 0).val; rw [← h.1, Nat.mod_eq_of_lt (idx2_lt0 j)])
    | ⟨1, _⟩ => Fin.ext h.2.symm)

-- A block at block index 0 as large as its array is the array.
private theorem whole_eq {α : Type} {s : Shape} (x : s.Idx → α) (y j : s.Idx) (h : ∀ a, (j a : ℕ) = y a) : x y = x j :=
  congrArg x (funext fun a => Fin.ext (h a).symm)

theorem idx3 : ∀ t : Fin cfg3.N, win3_0.index t = ![t.val, 0] ∧ win3_1.index t = ![t.val, 0] ∧ win3_2.index t = 0
    ∧ win3_3.index t = 0 ∧ win3_4.index t = 0 ∧ win3_5.index t = ![t.val, 0] :=
  (by decide +kernel : ∀ t : Fin grid3.N, _)

-- Row `r` of the output is row `r % 2000` of the block of tile `r / 2000`.
theorem rows_cover3 (i : S50000x64.Idx) : ∃ t : Fin cfg3.N, (cfg3.win 5).flush t = true ∧ i ∈ ((cfg3.win 5).blk t).view.set := by
  have := idx2_lt0 i
  let t : Fin cfg3.N := ⟨(i 0).val / 2000, Nat.lt_of_lt_of_eq (by omega) N_3.symm⟩
  let y : S2000x64.Idx := ix2 ⟨(i 0).val % 2000, Nat.mod_lt _ (by decide)⟩ (i 1)
  obtain ⟨h0, h1⟩ := tile (idx3 t).2.2.2.2.2 (win3_5.rect_emb_val t y 0) (win3_5.rect_emb_val t y 1)
  exact ⟨t, flush3_5 t, (funext fun | ⟨0, _⟩ => Fin.ext (h0.trans (Nat.div_add_mod _ _)) | ⟨1, _⟩ => Fin.ext h1 :
    ((cfg3.win 5).blk t).view.emb y = i) ▸ View.emb_mem_set _ y⟩

-- A shape cast to the same shape is the identity, so the two bodies are the same function.
theorem pay3_eq_pay1 (h : Vec F S2000x64 .f32) (wh : Vec F S64x64 .f32) (agg : Vec F S2000x4 .f32) (wa : Vec F S64x4 .f32) (b : Vec F S64 .f32) :
    k3_pay1 h wh agg wa b = k1_pay1 h wh agg wa b := by
  unfold k3_pay1 k1_pay1
  simp only [shapeCast_self]

-- Row `2000·t + y₀` has quotient `t` and remainder `y₀` by 2000.
theorem nodeWhole_at3 (h : FVec F S50000x64 .f32) (agg : FVec F S50000x4 .f32) (wh : FVec F S64x64 .f32)
    (wa : FVec F S64x4 .f32) (b : FVec F S64 .f32) (i : S50000x64.Idx) (t : Nat) (y : S2000x64.Idx)
    (hi : (i 0).val = 2000 * t + (y 0).val ∧ (i 1).val = (y 1).val) :
    nodeWhole h agg wh wa b i
      = k1_pay1 (rowsAt 2000 50000 64 (by decide) h t) wh (rowsAt 2000 50000 4 (by decide) agg t) wa b y := by
  have := idx2_lt0 y
  have hm : (i 0).val % 2000 = (y 0).val := by omega
  obtain rfl : (i 0).val / 2000 = t := by omega
  exact congrArg (k1_pay1 _ _ _ _ _) (funext fun | ⟨0, _⟩ => Fin.ext hm | ⟨1, _⟩ => Fin.ext hi.2)

-- The value at tile `t` is band `t` of `nodeWhole`: its blocks are rows `2000·t …` of h and agg and the weights whole.
theorem final3 (c : Dev nD) :
    (dat3 V c).arrAt 5 cfg3.N = nodeWhole (V c (Pipeline.arrRef spec3 0)) (V c (Pipeline.arrRef spec3 1))
      (V c (Pipeline.arrRef spec3 2)) (V c (Pipeline.arrRef spec3 3)) (V c (Pipeline.arrRef spec3 4)) :=
  (dat3 V c).arrAt_eq_of_cover 5 _ (fun t _ => by
    obtain ⟨e0, e1, e2, e3, e4, e5⟩ := idx3 t
    funext y
    refine ((congrFun ((after3_out V c t).trans (pay3_eq_pay1 _ _ _ _ _)) _).trans (Eq.symm ?_)).trans
      (nodeWhole_at3 _ _ _ _ _ _ _ y (tile e5 (win3_5.rect_emb_val t y 0) (win3_5.rect_emb_val t y 1))).symm
    congr 1 <;> funext z
    · exact rows_eq _ _ _ z _ (tile e0 (win3_0.rect_emb_val t z 0) (win3_0.rect_emb_val t z 1))
    · exact whole_eq _ z _ fun a => win3_2.rect_emb_val_of_index_zero t a (congrFun e2 a) z
    · exact rows_eq _ _ _ z _ (tile e1 (win3_1.rect_emb_val t z 0) (win3_1.rect_emb_val t z 1))
    · exact whole_eq _ z _ fun a => win3_3.rect_emb_val_of_index_zero t a (congrFun e3 a) z
    · exact whole_eq _ z _ fun a => win3_4.rect_emb_val_of_index_zero t a (congrFun e4 a) z) rows_cover3

end Cert.KernelIdeal.Hand

end
-- ==== Proof.KI.Value4.lean ====
import proofs.«409757_j13056700579878_4_alg».proof.Proof.KI.Region4
import proofs.«409757_j13056700579878_4_alg».proof.Proof.KI.Spec
import Idealize.ShloMosaic.Lib.Pipeline.Value
import Idealize.ShloMosaic.Lib.ValueIdx
import Idealize.ShloMosaic.Lib.Tactic

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = 0 ∧ win4_6.index t (1 : Fin 2) = 0 :=
  (by decide +kernel : ∀ t : Fin grid4.N, _)

-- A function of an index depends on the coordinates only.
theorem congr_idx {s : Shape} {α : Type} (G : s.Idx → α) {j y : s.Idx} (h : ∀ a, (j a).val = (y a).val) : G j = G y :=
  congrArg G (funext fun a => Fin.ext (h a))

-- A block's coordinate is (block index) × (block size) + (coordinate in the block): tile `t` holds rows `2000·t …`.
theorem featRows4 (c : Dev nD) (t : Fin cfg4.N) :
    (iblk4 V c 0 t : Vec F S2000x64 .f32) = rowsAt 2000 50000 64 (by decide) (V c (Pipeline.arrRef spec4 0)) t.val := by
  obtain ⟨e0, e1, -⟩ := idx_facts4 t
  have ht : t.val < 25 := Nat.lt_of_lt_of_eq t.isLt N_4
  funext y
  have hy : (y 0).val < 2000 := (y 0).isLt
  refine congr_idx (V c (Pipeline.arrRef spec4 0)) fun | ⟨0, _⟩ => ?_ | ⟨1, _⟩ => ?_
  · show win4_0.index t (0 : Fin 2) * 2000 + 1 * (y 0).val = (2000 * t.val + (y 0).val) % 50000; rw [e0]; omega
  · show win4_0.index t (1 : Fin 2) * 64 + 1 * (y 1).val = (y 1).val; rw [e1]; omega

theorem batchRows4 (c : Dev nD) (t : Fin cfg4.N) :
    (iblk4 V c 1 t : Vec F S2000x1 .i32) = rowsAt 2000 50000 1 (by decide) (V c (Pipeline.arrRef spec4 1)) t.val := by
  obtain ⟨-, -, e0, e1, -⟩ := idx_facts4 t
  have ht : t.val < 25 := Nat.lt_of_lt_of_eq t.isLt N_4
  funext y
  have hy : (y 0).val < 2000 := (y 0).isLt
  refine congr_idx (V c (Pipeline.arrRef spec4 1)) fun | ⟨0, _⟩ => ?_ | ⟨1, _⟩ => ?_
  · show win4_1.index t (0 : Fin 2) * 2000 + 1 * (y 0).val = (2000 * t.val + (y 0).val) % 50000; rw [e0]; omega
  · show win4_1.index t (1 : Fin 2) * 1 + 1 * (y 1).val = (y 1).val; rw [e1]; omega

-- The read-out operands have one block, the whole array.
theorem fcw4 (c : Dev nD) (t : Fin cfg4.N) : (iblk4 V c 2 t : Vec F S16x64 .f32) = V c (Pipeline.arrRef spec4 2) := by
  obtain ⟨-, -, -, -, e0, e1, -⟩ := idx_facts4 t
  funext y
  refine congr_idx (V c (Pipeline.arrRef spec4 2)) fun | ⟨0, _⟩ => ?_ | ⟨1, _⟩ => ?_
  · show win4_2.index t (0 : Fin 2) * 16 + 1 * (y 0).val = (y 0).val; rw [e0]; omega
  · show win4_2.index t (1 : Fin 2) * 64 + 1 * (y 1).val = (y 1).val; rw [e1]; omega

theorem fcb4 (c : Dev nD) (t : Fin cfg4.N) : (iblk4 V c 3 t : Vec F S16 .f32) = V c (Pipeline.arrRef spec4 3) := by
  obtain ⟨-, -, -, -, -, -, e0, -⟩ := idx_facts4 t
  funext y
  refine congr_idx (V c (Pipeline.arrRef spec4 3)) fun | ⟨0, _⟩ => ?_
  show win4_3.index t (0 : Fin 1) * 16 + 1 * (y 0).val = (y 0).val; rw [e0]; omega

theorem fzw4 (c : Dev nD) (t : Fin cfg4.N) : (iblk4 V c 4 t : Vec F S2x16 .f32) = V c (Pipeline.arrRef spec4 4) := by
  obtain ⟨-, -, -, -, -, -, -, e0, e1, -⟩ := idx_facts4 t
  funext y
  refine congr_idx (V c (Pipeline.arrRef spec4 4)) fun | ⟨0, _⟩ => ?_ | ⟨1, _⟩ => ?_
  · show win4_4.index t (0 : Fin 2) * 2 + 1 * (y 0).val = (y 0).val; rw [e0]; omega
  · show win4_4.index t (1 : Fin 2) * 16 + 1 * (y 1).val = (y 1).val; rw [e1]; omega

theorem fzb4 (c : Dev nD) (t : Fin cfg4.N) : (iblk4 V c 5 t : Vec F S2 .f32) = V c (Pipeline.arrRef spec4 5) := by
  obtain ⟨-, -, -, -, -, -, -, -, -, e0, -⟩ := idx_facts4 t
  funext y
  refine congr_idx (V c (Pipeline.arrRef spec4 5)) fun | ⟨0, _⟩ => ?_
  show win4_5.index t (0 : Fin 1) * 2 + 1 * (y 0).val = (y 0).val; rw [e0]; omega

-- The accumulators after tile `n` are the recursion over the arrays' row bands.
theorem sums4_eq (c : Dev nD) : ∀ (n : ℕ) (h : n < cfg4.N),
    sums4 V c n h = poolSums (V c (Pipeline.arrRef spec4 0)) (V c (Pipeline.arrRef spec4 1)) n
  | 0, h => by rw [sums4, poolSums, batchRows4, featRows4]
  | n + 1, h => by rw [sums4, poolSums, batchRows4, featRows4, sums4_eq c n]

theorem cnts4_eq (c : Dev nD) : ∀ (n : ℕ) (h : n < cfg4.N),
    cnts4 V c n h = poolCnts (F := F) (V c (Pipeline.arrRef spec4 1)) n
  | 0, h => by rw [cnts4, poolCnts, batchRows4]
  | n + 1, h => by rw [cnts4, poolCnts, batchRows4, cnts4_eq c n]

theorem mem_blk4 (t : Fin cfg4.N) (i : S512x2.Idx) :
    i ∈ ((cfg4.win 6).blk t).view.set ↔ ∀ a : Fin 2, win4_6.index t a * S512x2.size a ≤ (i a).val ∧ (i a).val < win4_6.index t a * S512x2.size a + S512x2.size a := by
  show i ∈ ((View.whole main_v29).slice (win4_6.rect t)).set ↔ _
  rw [View.set_slice_whole, Rect.mem_set_unit]
  exact Iff.rfl

-- The last tile's block covers the array and holds the read-out of the two accumulators.
theorem final4 (c : Dev nD) : (dat4 V c).arrAt 6 cfg4.N = poolWhole (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) := by
  have hN : 24 < cfg4.N := Nat.lt_of_lt_of_eq (by decide) N_4.symm
  refine (dat4 V c).arrAt_eq_of_cover 6 _ (fun t hf => ?_) fun i => ⟨⟨24, hN⟩, (flush4_6 _).mpr rfl, ?_⟩
  · have ht : t.val = 24 := by
      have := (flush4_6 t).mp hf
      have := Nat.lt_of_lt_of_eq t.isLt N_4
      omega
    obtain ⟨-, -, -, -, -, -, -, -, -, -, e0, e1⟩ := idx_facts4 t
    show (cfg4.win 6).cut (grid4.coords t) ((dat4 V c).after 6 t) = _
    rw [after4_6, sums4_eq, cnts4_eq, ht, fcw4, fcb4, fzw4, fzb4]
    funext y
    refine congr_idx (poolWhole _ _ _ _ _ _) fun | ⟨0, _⟩ => ?_ | ⟨1, _⟩ => ?_
    · show (y 0).val = win4_6.index t (0 : Fin 2) * 512 + 1 * (y 0).val; rw [e0]; omega
    · show (y 1).val = win4_6.index t (1 : Fin 2) * 2 + 1 * (y 1).val; rw [e1]; omega
  · obtain ⟨-, -, -, -, -, -, -, -, -, -, e0, e1⟩ := idx_facts4 ⟨24, hN⟩
    have h0 : (i 0).val < 512 := (i 0).isLt
    have h1 : (i 1).val < 2 := (i 1).isLt
    rw [mem_blk4]
    intro a
    match a with
    | ⟨0, _⟩ =>
      show win4_6.index ⟨24, hN⟩ (0 : Fin 2) * 512 ≤ (i 0).val ∧ (i 0).val < win4_6.index ⟨24, hN⟩ (0 : Fin 2) * 512 + 512
      rw [e0]; omega
    | ⟨1, _⟩ =>
      show win4_6.index ⟨24, hN⟩ (1 : Fin 2) * 2 ≤ (i 1).val ∧ (i 1).val < win4_6.index ⟨24, hN⟩ (1 : Fin 2) * 2 + 2
      rw [e1]; omega

end Cert.KernelIdeal.Hand

end
-- ==== Proof.KI.HostSpec.lean ====
import proofs.«409757_j13056700579878_4_alg».proof.KernelIdeal

noncomputable section

namespace Cert.KernelIdeal.Hand

open Idealize.ShloMosaic Cert.KernelIdeal
open Cert.KernelIdeal.Facts₀

variable {F : FTy → Type} [FloatOps F] [Facts₀]

def srcK (ei : IVec S2x800000 32) : IVec S800000 32 :=
  shapeCast S800000 (extractStridedSlice S1x800000 ![0, 0] ei slices_S2x800000_S1x800000_0_0) shapeCasts_S1x800000_S800000

def dstK (ei : IVec S2x800000 32) : IVec S800000 32 :=
  shapeCast S800000 (extractStridedSlice S1x800000 ![1, 0] ei slices_S2x800000_S1x800000_1_0) shapeCasts_S1x800000_S800000

def batch2K (bt : IVec S50000 32) : IVec S50000x1 32 :=
  shapeCast S50000x1 bt shapeCasts_S50000_S50000x1

def wsK (w : FVec F S4x136 .f32) : FVec F S4x64 .f32 :=
  extractStridedSlice S4x64 ![0, 0] w slices_S4x136_S4x64_0_0

def wdK (w : FVec F S4x136 .f32) : FVec F S4x64 .f32 :=
  extractStridedSlice S4x64 ![0, 64] w slices_S4x136_S4x64_0_64

def weK (w : FVec F S4x136 .f32) : FVec F S4x8 .f32 :=
  extractStridedSlice S4x8 ![0, 128] w slices_S4x136_S4x8_0_128

def whK (w : FVec F S64x68 .f32) : FVec F S64x64 .f32 :=
  extractStridedSlice S64x64 ![0, 0] w slices_S64x68_S64x64_0_0

def waK (w : FVec F S64x68 .f32) : FVec F S64x4 .f32 :=
  extractStridedSlice S64x4 ![0, 64] w slices_S64x68_S64x4_0_64

def takeWrapK (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

def takeIdxK (i : IVec S800000 32) : IVec S800000x1 32 :=
  broadcastInDim S800000x1 ![0] bcast_S800000_S800000x1_0 (takeWrapK i)

def takeMaskK (i : IVec S800000 32) : IVec S800000 1 :=
  Host.reduce IntOp.andi
    (andi (cmpi .sge (takeIdxK i) (broadcastInDim S800000x1 ![] bcast_S_S800000x1 (constantI S_ 32 0#32)))
      (cmpi .sle (takeIdxK i)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

def takeK (h : FVec F S50000x64 .f32) (i : IVec S800000 32) : FVec F S800000x64 .f32 :=
  select (broadcastInDim S800000x64 ![0] bcast_S800000_S800000x64_0 (takeMaskK i))
    (Host.gather gather_S50000x64_S800000x1_S800000x64_1_0_n_n_0_1_164 h (takeIdxK i))
    (broadcastInDim S800000x64 ![] bcast_S_S800000x64 (constant S_ .f32 0x7FC00000#32))

def aggK (i : IVec S800000 32) (msg : FVec F S800000x4 .f32) : FVec F S50000x4 .f32 :=
  Host.scatterAdd scatter_S50000x4_S800000x1_S800000x4_1_0_0_1
    (broadcastInDim S50000x4 ![] bcast_S_S50000x4 (constant S_ .f32 0x00000000#32))
    (broadcastInDim S800000x1 ![0] bcast_S800000_S800000x1_0 i) msg

end Cert.KernelIdeal.Hand

end
-- ==== Proof.KI.HostTakes.lean ====
import proofs.«409757_j13056700579878_4_alg».proof.Proof.KI.HostSpec
import proofs.«409757_j13056700579878_4_alg».proof.Proof.Gen.KernelIdeal.Launch
import Idealize.ShloMosaic.Lib.StableHlo.Run

set_option maxRecDepth 1268

noncomputable section

namespace Cert.KernelIdeal.Hand

open Idealize.ShloMosaic Idealize.ShloMosaic.TcCoe Idealize.SL.Sem Cert.KernelIdeal Cert.KernelIdeal.Gen

variable {F : FTy → Type} [FloatOps F] (W : Valuation τ sig (Elt F))

-- A gather stretch leaves `takeK` of its node array and its index vector, whatever the contents before it.
set_option maxHeartbeats 1000000 in
theorem take0_v15 : (StableHlo.after hostOps0_1 W (Proc.devRef .tc main_v15) : FVec F S800000x64 .f32)
    = takeK (W (Proc.devRef .tc main_arg0)) (W (Proc.devRef .tc main_v1)) := by
  after_results_simp
  simp only [StableHlo.TRef.ofBuf, StableHlo.TRef.toBuf]
  repeat rw [cast_eq]
  rfl

set_option maxHeartbeats 1000000 in
theorem take1_v16 : (StableHlo.after hostOps0_2 W (Proc.devRef .tc main_v16) : FVec F S800000x64 .f32)
    = takeK (W (Proc.devRef .tc main_arg0)) (W (Proc.devRef .tc main_v3)) := by
  after_results_simp
  simp only [StableHlo.TRef.ofBuf, StableHlo.TRef.toBuf]
  repeat rw [cast_eq]
  rfl

set_option maxHeartbeats 1000000 in
theorem take2_v22 : (StableHlo.after hostOps2 W (Proc.devRef .tc main_v22) : FVec F S800000x64 .f32)
    = takeK (W (Proc.devRef .tc main_v21)) (W (Proc.devRef .tc main_v1)) := by
  after_results_simp
  simp only [StableHlo.TRef.ofBuf, StableHlo.TRef.toBuf]
  repeat rw [cast_eq]
  rfl

set_option maxHeartbeats 1000000 in
theorem take3_v23 : (StableHlo.after hostOps2_1 W (Proc.devRef .tc main_v23) : FVec F S800000x64 .f32)
    = takeK (W (Proc.devRef .tc main_v21)) (W (Proc.devRef .tc main_v3)) := by
  after_results_simp
  simp only [StableHlo.TRef.ofBuf, StableHlo.TRef.toBuf]
  repeat rw [cast_eq]
  rfl

end Cert.KernelIdeal.Hand

end
-- ==== Proof.KI.HostVals.lean ====
import proofs.«409757_j13056700579878_4_alg».proof.Proof.KI.HostSpec
import proofs.«409757_j13056700579878_4_alg».proof.Proof.KI.HostTakes
import proofs.«409757_j13056700579878_4_alg».proof.Proof.Gen.KernelIdeal.Regions
import Idealize.ShloMosaic.Lib.StableHlo.Run

noncomputable section

namespace Cert.KernelIdeal.Hand

open Idealize.ShloMosaic Idealize.ShloMosaic.TcCoe Idealize.SL.Sem Cert.KernelIdeal Cert.KernelIdeal.Gen

variable {F : FTy → Type} [FloatOps F]

section Stretches

variable (W : Valuation τ sig (Elt F))

-- A scatter-add stretch leaves the messages summed into the rows its index operand names, whatever the contents before it.
theorem agg0_v20 : (StableHlo.after hostOps1 W (Proc.devRef .tc main_v20) : FVec F S50000x4 .f32)
    = aggK (W (Proc.devRef .tc main_v1)) (W (Proc.devRef .tc main_v17)) := by after_results; rfl
theorem agg1_v27 : (StableHlo.after hostOps3 W (Proc.devRef .tc main_v27) : FVec F S50000x4 .f32)
    = aggK (W (Proc.devRef .tc main_v1)) (W (Proc.devRef .tc main_v24)) := by after_results; rfl

end Stretches

variable (m : (ℓ : Loc nD τ sig) → Buf (Elt F) ℓ) (outs : Outs (F := F)) (c : Dev nD)

-- The first stretch leaves the rows of the edge list, the graph ids as a column and the weights' column blocks.
theorem V1_main_v1 : (V1 m c main_v1 : IVec S800000 32) = srcK (m ((c : Thread nD τ).loc main_arg1)) := by after_results; rfl
theorem V1_main_v3 : (V1 m c main_v3 : IVec S800000 32) = dstK (m ((c : Thread nD τ).loc main_arg1)) := by after_results; rfl
theorem V1_main_v4 : (V1 m c main_v4 : IVec S50000x1 32) = batch2K (m ((c : Thread nD τ).loc main_arg3)) := by after_results; rfl
theorem V1_main_v5 : (V1 m c main_v5 : FVec F S4x64 .f32) = wsK (m ((c : Thread nD τ).loc main_arg4)) := by after_results; rfl
theorem V1_main_v6 : (V1 m c main_v6 : FVec F S4x64 .f32) = wdK (m ((c : Thread nD τ).loc main_arg4)) := by after_results; rfl
theorem V1_main_v7 : (V1 m c main_v7 : FVec F S4x8 .f32) = weK (m ((c : Thread nD τ).loc main_arg4)) := by after_results; rfl
theorem V1_main_v8 : (V1 m c main_v8 : FVec F S4x64 .f32) = wsK (m ((c : Thread nD τ).loc main_arg8)) := by after_results; rfl
theorem V1_main_v9 : (V1 m c main_v9 : FVec F S4x64 .f32) = wdK (m ((c : Thread nD τ).loc main_arg8)) := by after_results; rfl
theorem V1_main_v10 : (V1 m c main_v10 : FVec F S4x8 .f32) = weK (m ((c : Thread nD τ).loc main_arg8)) := by after_results; rfl
theorem V1_main_v11 : (V1 m c main_v11 : FVec F S64x64 .f32) = whK (m ((c : Thread nD τ).loc main_arg6)) := by after_results; rfl
theorem V1_main_v12 : (V1 m c main_v12 : FVec F S64x4 .f32) = waK (m ((c : Thread nD τ).loc main_arg6)) := by after_results; rfl
theorem V1_main_v13 : (V1 m c main_v13 : FVec F S64x64 .f32) = whK (m ((c : Thread nD τ).loc main_arg10)) := by after_results; rfl
theorem V1_main_v14 : (V1 m c main_v14 : FVec F S64x4 .f32) = waK (m ((c : Thread nD τ).loc main_arg10)) := by after_results; rfl

end Cert.KernelIdeal.Hand

end
-- ==== Proof.KI.Out.lean ====
import proofs.«409757_j13056700579878_4_alg».proof.Proof.KI.Spec
import proofs.«409757_j13056700579878_4_alg».proof.Proof.KI.HostSpec

noncomputable section

namespace Cert.KernelIdeal.Hand

open Idealize.ShloMosaic Cert.KernelIdeal

variable {F : FTy → Type} [FloatOps F] [Facts₀]

def layerK (h : FVec F S50000x64 .f32) (src dst : IVec S800000 32) (ea : FVec F S800000x8 .f32)
    (fe_w : FVec F S4x136 .f32) (fe_b : FVec F S4 .f32) (fh_w : FVec F S64x68 .f32) (fh_b : FVec F S64 .f32) :
    FVec F S50000x64 .f32 :=
  nodeWhole h (aggK src (edgeWhole (takeK h src) (takeK h dst) ea (wsK fe_w) (wdK fe_w) (weK fe_w) fe_b))
    (whK fh_w) (waK fh_w) fh_b

def kerOut (x : FVec F S50000x64 .f32) (ei : IVec S2x800000 32) (ea : FVec F S800000x8 .f32) (bt : IVec S50000 32)
    (fe1_w : FVec F S4x136 .f32) (fe1_b : FVec F S4 .f32) (fh1_w : FVec F S64x68 .f32) (fh1_b : FVec F S64 .f32)
    (fe2_w : FVec F S4x136 .f32) (fe2_b : FVec F S4 .f32) (fh2_w : FVec F S64x68 .f32) (fh2_b : FVec F S64 .f32)
    (fc_w : FVec F S16x64 .f32) (fc_b : FVec F S16 .f32) (fz_w : FVec F S2x16 .f32) (fz_b : FVec F S2 .f32) :
    FVec F S512x2 .f32 :=
  poolWhole
    (layerK (layerK x (srcK ei) (dstK ei) ea fe1_w fe1_b fh1_w fh1_b) (srcK ei) (dstK ei) ea fe2_w fe2_b fh2_w fh2_b)
    (batch2K bt) fc_w fc_b fz_w fz_b

end Cert.KernelIdeal.Hand

end
-- ==== Proof.KI.OutVal.lean ====
import proofs.«409757_j13056700579878_4_alg».proof.Proof.KI.Run
import proofs.«409757_j13056700579878_4_alg».proof.Proof.KI.Value0
import proofs.«409757_j13056700579878_4_alg».proof.Proof.KI.Value1
import proofs.«409757_j13056700579878_4_alg».proof.Proof.KI.Value2
import proofs.«409757_j13056700579878_4_alg».proof.Proof.KI.Value3
import proofs.«409757_j13056700579878_4_alg».proof.Proof.KI.Value4
import proofs.«409757_j13056700579878_4_alg».proof.Proof.KI.HostVals
import proofs.«409757_j13056700579878_4_alg».proof.Proof.KI.Out

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (c : Dev nD)

-- Contents that agree off `L`, then off `L'`, agree off both.
theorem agree_append {L L' : List (Ref sig .tc)} {A B C : Valuation τ sig (Elt F)} (h : ∀ r ∉ L, A r = B r) (h' : ∀ r ∉ L', B r = C r) :
    ∀ r ∉ L ++ L', A r = C r :=
  fun r hr => (h r (hr ∘ List.mem_append_left _)).trans (h' r (hr ∘ List.mem_append_right _))

-- A buffer that no step after the first host stretch writes still holds, before step `J`, what that stretch left.
def off3 := agree_append (V3_of m c) (V2_of m c)
def off4 := agree_append (V4_of m (outs m) c) (off3 m c)
def off5 := agree_append (V5_of m (outs m) c) (off4 m c)
def off6 := agree_append (V6_of m (outs m) c) (off5 m c)
def off7 := agree_append (V7_of m (outs m) c) (off6 m c)
def off8 := agree_append (V8_of m (outs m) c) (off7 m c)
def off9 := agree_append (V9_of m (outs m) c) (off8 m c)
def off10 := agree_append (V10_of m (outs m) c) (off9 m c)
def off11 := agree_append (V11_of m (outs m) c) (off10 m c)

-- The first layer's edge messages: the region reads two gathers of the node array, the edge attributes, three weight blocks and the bias.
theorem o4_eq : (o4 m c : FVec F S800000x4 .f32)
    = edgeWhole (takeK (m ((c : Thread nD τ).loc main_arg0)) (srcK (m ((c : Thread nD τ).loc main_arg1)))) (takeK (m ((c : Thread nD τ).loc main_arg0)) (dstK (m ((c : Thread nD τ).loc main_arg1)))) (m ((c : Thread nD τ).loc main_arg2))
        (wsK (m ((c : Thread nD τ).loc main_arg4))) (wdK (m ((c : Thread nD τ).loc main_arg4))) (weK (m ((c : Thread nD τ).loc main_arg4))) (m ((c : Thread nD τ).loc main_arg5)) := by
  unfold o4
  rw [final0]
  exact congr (congr (congr (congr (congr (congr (congrArg edgeWhole
    ((V3_of m c main_v15 (by decide)).trans <| (take0_v15 _).trans <| congrArg₂ takeK (V1_of m c _ (by decide)) (V1_main_v1 m c)))
    ((take1_v16 (V2 m c)).trans <| congrArg₂ takeK ((V2_of m c _ (by decide)).trans (V1_of m c _ (by decide))) ((V2_of m c _ (by decide)).trans (V1_main_v3 m c))))
    ((off3 m c main_arg2 (by decide)).trans (V1_of m c _ (by decide))))
    ((off3 m c main_v5 (by decide)).trans (V1_main_v5 m c)))
    ((off3 m c main_v6 (by decide)).trans (V1_main_v6 m c)))
    ((off3 m c main_v7 (by decide)).trans (V1_main_v7 m c)))
    ((off3 m c main_arg5 (by decide)).trans (V1_of m c _ (by decide)))

-- The first layer's node features: the messages summed per source node, then the node update.
theorem o6_eq : (o6 m c : FVec F S50000x64 .f32)
    = layerK (m ((c : Thread nD τ).loc main_arg0)) (srcK (m ((c : Thread nD τ).loc main_arg1))) (dstK (m ((c : Thread nD τ).loc main_arg1))) (m ((c : Thread nD τ).loc main_arg2)) (m ((c : Thread nD τ).loc main_arg4)) (m ((c : Thread nD τ).loc main_arg5)) (m ((c : Thread nD τ).loc main_arg6)) (m ((c : Thread nD τ).loc main_arg7)) := by
  unfold o6 layerK atRefs
  rw [final1, ← V5_eq, ← o4_eq m c, ← outs4]
  exact congr (congr (congr (congr (congrArg nodeWhole
    ((off5 m c main_arg0 (by decide)).trans (V1_of m c _ (by decide))))
    ((agg0_v20 (V4 m (outs m) c)).trans <| congrArg₂ aggK ((off4 m c main_v1 (by decide)).trans (V1_main_v1 m c)) (Function.update_self ..)))
    ((off5 m c main_v11 (by decide)).trans (V1_main_v11 m c)))
    ((off5 m c main_v12 (by decide)).trans (V1_main_v12 m c)))
    ((off5 m c main_arg7 (by decide)).trans (V1_of m c _ (by decide)))

-- The second layer's edge messages, gathered from the first layer's features.
theorem o9_eq : (o9 m c : FVec F S800000x4 .f32)
    = edgeWhole (takeK (o6 m c) (srcK (m ((c : Thread nD τ).loc main_arg1)))) (takeK (o6 m c) (dstK (m ((c : Thread nD τ).loc main_arg1)))) (m ((c : Thread nD τ).loc main_arg2))
        (wsK (m ((c : Thread nD τ).loc main_arg8))) (wdK (m ((c : Thread nD τ).loc main_arg8))) (weK (m ((c : Thread nD τ).loc main_arg8))) (m ((c : Thread nD τ).loc main_arg9)) := by
  unfold o9 atRefs
  rw [final2, ← V8_eq, ← outs6]
  exact congr (congr (congr (congr (congr (congr (congrArg edgeWhole
    ((V8_of m (outs m) c main_v22 (by decide)).trans <| (take2_v22 _).trans <| congrArg₂ takeK (Function.update_self ..) ((off6 m c main_v1 (by decide)).trans (V1_main_v1 m c))))
    ((take3_v23 (V7 m (outs m) c)).trans <| congrArg₂ takeK ((V7_of m (outs m) c _ (by decide)).trans (Function.update_self ..)) ((off7 m c main_v3 (by decide)).trans (V1_main_v3 m c))))
    ((off8 m c main_arg2 (by decide)).trans (V1_of m c _ (by decide))))
    ((off8 m c main_v8 (by decide)).trans (V1_main_v8 m c)))
    ((off8 m c main_v9 (by decide)).trans (V1_main_v9 m c)))
    ((off8 m c main_v10 (by decide)).trans (V1_main_v10 m c)))
    ((off8 m c main_arg9 (by decide)).trans (V1_of m c _ (by decide)))

-- The second layer's node features.
theorem o11_eq : (o11 m c : FVec F S50000x64 .f32)
    = layerK (o6 m c) (srcK (m ((c : Thread nD τ).loc main_arg1))) (dstK (m ((c : Thread nD τ).loc main_arg1))) (m ((c : Thread nD τ).loc main_arg2)) (m ((c : Thread nD τ).loc main_arg8)) (m ((c : Thread nD τ).loc main_arg9)) (m ((c : Thread nD τ).loc main_arg10)) (m ((c : Thread nD τ).loc main_arg11)) := by
  unfold o11 layerK atRefs
  rw [final3, ← V10_eq, ← o9_eq m c, ← outs9, ← outs6]
  exact congr (congr (congr (congr (congrArg nodeWhole
    ((V10_of m (outs m) c main_v21 (by decide)).trans <| (V9_of m (outs m) c _ (by decide)).trans <| (V8_of m (outs m) c _ (by decide)).trans <| (V7_of m (outs m) c _ (by decide)).trans (Function.update_self ..)))
    ((agg1_v27 (V9 m (outs m) c)).trans <| congrArg₂ aggK ((off9 m c main_v1 (by decide)).trans (V1_main_v1 m c)) (Function.update_self ..)))
    ((off10 m c main_v13 (by decide)).trans (V1_main_v13 m c)))
    ((off10 m c main_v14 (by decide)).trans (V1_main_v14 m c)))
    ((off10 m c main_arg11 (by decide)).trans (V1_of m c _ (by decide)))

-- The result array is the program's function of the sixteen argument arrays.
theorem o12_eq : (o12 m c : FVec F S512x2 .f32)
    = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold o12 kerOut atRefs
  rw [final4, ← V11_eq, ← o6_eq m c, ← o11_eq m c, ← outs11]
  exact congr (congr (congr (congr (congr (congrArg poolWhole
    (Function.update_self ..))
    ((off11 m c main_v4 (by decide)).trans (V1_main_v4 m c)))
    ((off11 m c main_arg12 (by decide)).trans (V1_of m c _ (by decide))))
    ((off11 m c main_arg13 (by decide)).trans (V1_of m c _ (by decide))))
    ((off11 m c main_arg14 (by decide)).trans (V1_of m c _ (by decide))))
    ((off11 m c main_arg15 (by decide)).trans (V1_of m c _ (by decide)))

end Cert.KernelIdeal.Hand

end
-- ==== Proof.Ref.Spec.lean ====
import proofs.«409757_j13056700579878_4_alg».proof.ReferenceIdeal

noncomputable section

namespace Cert.ReferenceIdeal.Hand

open Idealize.ShloMosaic Cert.ReferenceIdeal Cert.ReferenceIdeal.Facts₀

variable {F : FTy → Type} [FloatOps F] [Facts]

def srcOf (ei : IVec S2x800000 32) : IVec S800000 32 :=
  shapeCast S800000 (extractStridedSlice S1x800000 ![0, 0] ei slices_S2x800000_S1x800000_0_0) shapeCasts_S1x800000_S800000

def dstOf (ei : IVec S2x800000 32) : IVec S800000 32 :=
  shapeCast S800000 (extractStridedSlice S1x800000 ![1, 0] ei slices_S2x800000_S1x800000_1_0) shapeCasts_S1x800000_S800000

def normIdx (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

def gatherRows (h : FVec F S50000x64 .f32) (i : IVec S800000 32) : FVec F S800000x64 .f32 :=
  Host.gather gather_S50000x64_S800000x1_S800000x64_1_0_n_n_0_1_164 h (normIdx i)

def edgeR (sf df : FVec F S800000x64 .f32) (ea : FVec F S800000x8 .f32) (w : FVec F S4x136 .f32) (b : FVec F S4 .f32) :
    FVec F S800000x4 .f32 :=
  let v18 : FVec F S800000x136 .f32 :=
    concatenate S800000x136 1 [⟨S800000x64, sf⟩, ⟨S800000x64, df⟩, ⟨S800000x8, ea⟩]
      concatenates_S800000x64_S800000x64_S800000x8_S800000x136_d1
  let v19 : FVec F S136x4 .f32 := transpose S136x4 [1, 0] w transposes_S4x136_S136x4_1_0
  let v20 : FVec F S800000x4 .f32 := Host.dotGeneral dot_S800000x136_S136x4_S800000x4_1_0_0_1_n_n none v18 v19
  let v23 : FVec F S800000x4 .f32 :=
    addf v20 (broadcastInDim S800000x4 ![0, 1] bcast_S1x4_S800000x4_0_1 (broadcastInDim S1x4 ![1] bcast_S4_S1x4_1 b))
  let v24 : FVec F S800000x4 .f32 :=
    select (cmpf .oge v23 (broadcastInDim S800000x4 ![] bcast_S_S800000x4 (constant S_ .f32 0x00000000#32))) v23
      (mulf (broadcastInDim S800000x4 ![] bcast_S_S800000x4 (constant S_ .f32 0x3C23D70A#32)) v23)
  let v25 : FVec F S800000 .f32 :=
    Host.reduce FloatOps.maximumf v24 (constant S_ .f32 0xFF800000#32 : FVec F S_ .f32) reducesTo_S800000x4_S800000_d1 h_S_
  let v27 : FVec F S800000 .f32 :=
    maximumf (broadcastInDim S800000 ![] bcast_S_S800000 (constant S_ .f32 0xFF800000#32)) v25
  let v30 : FVec F S800000x4 .f32 :=
    subf v24 (broadcastInDim S800000x4 ![0, 1] bcast_S800000x1_S800000x4_0_1
      (broadcastInDim S800000x1 ![0] bcast_S800000_S800000x1_0 v27))
  let v31 : FVec F S800000x4 .f32 := Host.exp v30
  let v32 : FVec F S800000 .f32 :=
    Host.reduceAdd v31 (constant S_ .f32 0x00000000#32 : FVec F S_ .f32) reducesTo_S800000x4_S800000_d1 h_S_
  Host.divf v31 (broadcastInDim S800000x4 ![0, 1] bcast_S800000x1_S800000x4_0_1
    (broadcastInDim S800000x1 ![0] bcast_S800000_S800000x1_0 v32))

def aggR (i : IVec S800000 32) (msg : FVec F S800000x4 .f32) : FVec F S50000x4 .f32 :=
  Host.scatterAdd scatter_S50000x4_S800000x1_S800000x4_1_0_0_1
    (broadcastInDim S50000x4 ![] bcast_S_S50000x4 (constant S_ .f32 0x00000000#32))
    (broadcastInDim S800000x1 ![0] bcast_S800000_S800000x1_0 i) msg

def nodeR (h : FVec F S50000x64 .f32) (agg : FVec F S50000x4 .f32) (w : FVec F S64x68 .f32) (b : FVec F S64 .f32) :
    FVec F S50000x64 .f32 :=
  let v39 : FVec F S50000x68 .f32 :=
    concatenate S50000x68 1 [⟨S50000x64, h⟩, ⟨S50000x4, agg⟩] concatenates_S50000x64_S50000x4_S50000x68_d1
  let v40 : FVec F S68x64 .f32 := transpose S68x64 [1, 0] w transposes_S64x68_S68x64_1_0
  let v41 : FVec F S50000x64 .f32 := Host.dotGeneral dot_S50000x68_S68x64_S50000x64_1_0_0_1_n_n none v39 v40
  let v44 : FVec F S50000x64 .f32 :=
    addf v41 (broadcastInDim S50000x64 ![0, 1] bcast_S1x64_S50000x64_0_1 (broadcastInDim S1x64 ![1] bcast_S64_S1x64_1 b))
  maximumf v44 (broadcastInDim S50000x64 ![] bcast_S_S50000x64 (constant S_ .f32 0x00000000#32))

def poolR (h : FVec F S50000x64 .f32) (bt : IVec S50000 32) (fcw : FVec F S16x64 .f32) (fcb : FVec F S16 .f32)
    (fzw : FVec F S2x16 .f32) (fzb : FVec F S2 .f32) : FVec F S512x2 .f32 :=
  let v90 : FVec F S512x64 .f32 :=
    Host.scatterAdd scatter_S512x64_S50000x1_S50000x64_1_0_0_1
      (broadcastInDim S512x64 ![] bcast_S_S512x64 (constant S_ .f32 0x00000000#32))
      (broadcastInDim S50000x1 ![0] bcast_S50000_S50000x1_0 bt) h
  let v94 : FVec F S512 .f32 :=
    Host.scatterAdd scatter_S512_S50000x1_S50000_n_0_0_1
      (broadcastInDim S512 ![] bcast_S_S512 (constant S_ .f32 0x00000000#32))
      (broadcastInDim S50000x1 ![0] bcast_S50000_S50000x1_0 bt)
      (broadcastInDim S50000 ![] bcast_S_S50000 (constant S_ .f32 0x3F800000#32))
  let v96 : FVec F S512 .f32 := maximumf v94 (broadcastInDim S512 ![] bcast_S_S512 (constant S_ .f32 0x3F800000#32))
  let v99 : FVec F S512x64 .f32 :=
    Host.divf v90 (broadcastInDim S512x64 ![0, 1] bcast_S512x1_S512x64_0_1 (broadcastInDim S512x1 ![0] bcast_S512_S512x1_0 v96))
  let v100 : FVec F S64x16 .f32 := transpose S64x16 [1, 0] fcw transposes_S16x64_S64x16_1_0
  let v101 : FVec F S512x16 .f32 := Host.dotGeneral dot_S512x64_S64x16_S512x16_1_0_0_1_n_n none v99 v100
  let v104 : FVec F S512x16 .f32 :=
    addf v101 (broadcastInDim S512x16 ![0, 1] bcast_S1x16_S512x16_0_1 (broadcastInDim S1x16 ![1] bcast_S16_S1x16_1 fcb))
  let v105 : FVec F S512x16 .f32 :=
    maximumf v104 (broadcastInDim S512x16 ![] bcast_S_S512x16 (constant S_ .f32 0x00000000#32))
  let v106 : FVec F S16x2 .f32 := transpose S16x2 [1, 0] fzw transposes_S2x16_S16x2_1_0
  let v107 : FVec F S512x2 .f32 := Host.dotGeneral dot_S512x16_S16x2_S512x2_1_0_0_1_n_n none v105 v106
  let v110 : FVec F S512x2 .f32 :=
    addf v107 (broadcastInDim S512x2 ![0, 1] bcast_S1x2_S512x2_0_1 (broadcastInDim S1x2 ![1] bcast_S2_S1x2_1 fzb))
  let v111 : FVec F S512x2 .f32 :=
    maximumf v110 (broadcastInDim S512x2 ![] bcast_S_S512x2 (constant S_ .f32 0x00000000#32))
  let v112 : FVec F S512 .f32 :=
    Host.reduce FloatOps.maximumf v111 (constant S_ .f32 0xFF800000#32 : FVec F S_ .f32) reducesTo_S512x2_S512_d1 h_S_
  let v114 : FVec F S512 .f32 := maximumf (broadcastInDim S512 ![] bcast_S_S512 (constant S_ .f32 0xFF800000#32)) v112
  let v117 : FVec F S512x2 .f32 :=
    subf v111 (broadcastInDim S512x2 ![0, 1] bcast_S512x1_S512x2_0_1 (broadcastInDim S512x1 ![0] bcast_S512_S512x1_0 v114))
  let v118 : FVec F S512x2 .f32 := Host.exp v117
  let v119 : FVec F S512 .f32 :=
    Host.reduceAdd v118 (constant S_ .f32 0x00000000#32 : FVec F S_ .f32) reducesTo_S512x2_S512_d1 h_S_
  Host.divf v118 (broadcastInDim S512x2 ![0, 1] bcast_S512x1_S512x2_0_1 (broadcastInDim S512x1 ![0] bcast_S512_S512x1_0 v119))

def refOut (x : FVec F S50000x64 .f32) (ei : IVec S2x800000 32) (ea : FVec F S800000x8 .f32) (bt : IVec S50000 32)
    (fe1_w : FVec F S4x136 .f32) (fe1_b : FVec F S4 .f32) (fh1_w : FVec F S64x68 .f32) (fh1_b : FVec F S64 .f32)
    (fe2_w : FVec F S4x136 .f32) (fe2_b : FVec F S4 .f32) (fh2_w : FVec F S64x68 .f32) (fh2_b : FVec F S64 .f32)
    (fc_w : FVec F S16x64 .f32) (fc_b : FVec F S16 .f32) (fz_w : FVec F S2x16 .f32) (fz_b : FVec F S2 .f32) :
    FVec F S512x2 .f32 :=
  let src := srcOf ei
  let dst := dstOf ei
  let h1 := nodeR x (aggR src (edgeR (gatherRows x src) (gatherRows x dst) ea fe1_w fe1_b)) fh1_w fh1_b
  let h2 := nodeR h1 (aggR src (edgeR (gatherRows h1 src) (gatherRows h1 dst) ea fe2_w fe2_b)) fh2_w fh2_b
  poolR h2 bt fc_w fc_b fz_w fz_b

end Cert.ReferenceIdeal.Hand

end
-- ==== Proof.Ref.Run.lean ====
import proofs.«409757_j13056700579878_4_alg».proof.Proof.Ref.Spec
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

def Ok (op : HloOp τ sig (Elt F)) (y : Ref sig .tc) : Prop :=
  op.bufs ⊆ tcRefs τ sig ∧ op.fresh = ∅ ∧ op.writes = {Proc.devRef .tc y}

section
variable (x a b c y : Ref sig .tc)
theorem ok_nullary (v : y.ty.Contents (Elt F)) (hy) : Ok (nullary (τ := τ) y v hy) y := ⟨nullary_bufs_sub .., rfl, rfl⟩
theorem ok_unary (f : x.ty.Contents (Elt F) → y.ty.Contents (Elt F)) (hx hy) : Ok (unary (τ := τ) x y f hx hy) y :=
  ⟨unary_bufs_sub .., rfl, rfl⟩
theorem ok_binary (f : a.ty.Contents (Elt F) → b.ty.Contents (Elt F) → y.ty.Contents (Elt F)) (ha hb hy) :
    Ok (binary (τ := τ) a b y f ha hb hy) y := ⟨binary_bufs_sub .., rfl, rfl⟩
theorem ok_ternary (f : c.ty.Contents (Elt F) → a.ty.Contents (Elt F) → b.ty.Contents (Elt F) → y.ty.Contents (Elt F)) (hc ha hb hy) :
    Ok (ternary (τ := τ) c a b y f hc ha hb hy) y := ⟨ternary_bufs_sub .., rfl, rfl⟩
theorem ok_reshape (he hn hx hy) : Ok (reshape (τ := τ) (Val := Elt F) x y he hn hx hy) y := ⟨reshape_bufs_sub .., rfl, rfl⟩
theorem ok_nary {n : Nat} (xs : Fin n → Ref sig .tc) (f : ((k : Fin n) → (xs k).ty.Contents (Elt F)) → y.ty.Contents (Elt F)) (hxs hy) :
    Ok (nary (τ := τ) xs y f hxs hy) y := ⟨nary_bufs_sub .., rfl, rfl⟩
end

-- each operation of the line writes exactly the reference listed beside it, so the line's writes lie within the list
theorem ok_all {l : List (HloOp τ sig (Elt F))} {W : List (Ref sig .tc)} (h : List.Forall₂ Ok l W) :
    (l.Forall fun op => op.bufs ⊆ tcRefs τ sig) ∧ (∀ op ∈ l, op.fresh = ∅) ∧
      l.Forall fun op => op.writes ⊆ (W.map (Proc.devRef (τ := τ) .tc)).toFinset := by
  induction h with
  | nil => exact ⟨trivial, nofun, trivial⟩
  | @cons op y l W h _ ih =>
    refine ⟨(List.forall_cons ..).2 ⟨h.1, ih.1⟩, List.forall_mem_cons.2 ⟨h.2.1, ih.2.1⟩, (List.forall_cons ..).2 ⟨?_, ih.2.2.imp fun _ hs => ?_⟩⟩
    · rw [h.2.2]; exact Finset.singleton_subset_iff.2 (List.mem_toFinset.2 (List.mem_map.2 ⟨y, List.mem_cons_self, rfl⟩))
    · exact hs.trans fun _ hb => List.mem_toFinset.2 (List.map_subset _ (List.subset_cons_self ..) (List.mem_toFinset.1 hb))

-- a reference outside that list is written by no operation of the line: it keeps its contents
theorem keep_of {l : List (HloOp τ sig (Elt F))} {W : List (Ref sig .tc)} (h : List.Forall₂ Ok l W) (V : Valuation τ sig (Elt F))
    {r : Ref sig .tc} (hr : r ∉ W) : after l V (no_index (Proc.devRef .tc r)) = V (Proc.devRef .tc r) :=
  after_of_writes_sub l V (ok_all h).2.2 hr

def edgeLin (sf df : FVec F S800000x64 .f32) (ea : FVec F S800000x8 .f32) (w : FVec F S4x136 .f32) (b : FVec F S4 .f32) :
    FVec F S800000x4 .f32 :=
  let v18 : FVec F S800000x136 .f32 :=
    concatenate S800000x136 1 [⟨S800000x64, sf⟩, ⟨S800000x64, df⟩, ⟨S800000x8, ea⟩]
      concatenates_S800000x64_S800000x64_S800000x8_S800000x136_d1
  let v19 : FVec F S136x4 .f32 := transpose S136x4 [1, 0] w transposes_S4x136_S136x4_1_0
  let v20 : FVec F S800000x4 .f32 := Host.dotGeneral dot_S800000x136_S136x4_S800000x4_1_0_0_1_n_n none v18 v19
  let v23 : FVec F S800000x4 .f32 :=
    addf v20 (broadcastInDim S800000x4 ![0, 1] bcast_S1x4_S800000x4_0_1 (broadcastInDim S1x4 ![1] bcast_S4_S1x4_1 b))
  select (cmpf .oge v23 (broadcastInDim S800000x4 ![] bcast_S_S800000x4 (constant S_ .f32 0x00000000#32))) v23
    (mulf (broadcastInDim S800000x4 ![] bcast_S_S800000x4 (constant S_ .f32 0x3C23D70A#32)) v23)

def rowSoftmax4 (v24 : FVec F S800000x4 .f32) : FVec F S800000x4 .f32 :=
  let v25 : FVec F S800000 .f32 :=
    Host.reduce FloatOps.maximumf v24 (constant S_ .f32 0xFF800000#32 : FVec F S_ .f32) reducesTo_S800000x4_S800000_d1 h_S_
  let v27 : FVec F S800000 .f32 :=
    maximumf (broadcastInDim S800000 ![] bcast_S_S800000 (constant S_ .f32 0xFF800000#32)) v25
  let v30 : FVec F S800000x4 .f32 :=
    subf v24 (broadcastInDim S800000x4 ![0, 1] bcast_S800000x1_S800000x4_0_1
      (broadcastInDim S800000x1 ![0] bcast_S800000_S800000x1_0 v27))
  let v31 : FVec F S800000x4 .f32 := Host.exp v30
  let v32 : FVec F S800000 .f32 :=
    Host.reduceAdd v31 (constant S_ .f32 0x00000000#32 : FVec F S_ .f32) reducesTo_S800000x4_S800000_d1 h_S_
  Host.divf v31 (broadcastInDim S800000x4 ![0, 1] bcast_S800000x1_S800000x4_0_1
    (broadcastInDim S800000x1 ![0] bcast_S800000_S800000x1_0 v32))

theorem edgeR_eq (sf df : FVec F S800000x64 .f32) (ea : FVec F S800000x8 .f32) (w : FVec F S4x136 .f32) (b : FVec F S4 .f32) :
    edgeR sf df ea w b = rowSoftmax4 (edgeLin sf df ea w b) := rfl

def poolMean (h : FVec F S50000x64 .f32) (bt : IVec S50000 32) : FVec F S512x64 .f32 :=
  let v90 : FVec F S512x64 .f32 :=
    Host.scatterAdd scatter_S512x64_S50000x1_S50000x64_1_0_0_1
      (broadcastInDim S512x64 ![] bcast_S_S512x64 (constant S_ .f32 0x00000000#32))
      (broadcastInDim S50000x1 ![0] bcast_S50000_S50000x1_0 bt) h
  let v94 : FVec F S512 .f32 :=
    Host.scatterAdd scatter_S512_S50000x1_S50000_n_0_0_1
      (broadcastInDim S512 ![] bcast_S_S512 (constant S_ .f32 0x00000000#32))
      (broadcastInDim S50000x1 ![0] bcast_S50000_S50000x1_0 bt)
      (broadcastInDim S50000 ![] bcast_S_S50000 (constant S_ .f32 0x3F800000#32))
  let v96 : FVec F S512 .f32 := maximumf v94 (broadcastInDim S512 ![] bcast_S_S512 (constant S_ .f32 0x3F800000#32))
  Host.divf v90 (broadcastInDim S512x64 ![0, 1] bcast_S512x1_S512x64_0_1 (broadcastInDim S512x1 ![0] bcast_S512_S512x1_0 v96))

def poolMlp (v99 : FVec F S512x64 .f32) (fcw : FVec F S16x64 .f32) (fcb : FVec F S16 .f32)
    (fzw : FVec F S2x16 .f32) (fzb : FVec F S2 .f32) : FVec F S512x2 .f32 :=
  let v100 : FVec F S64x16 .f32 := transpose S64x16 [1, 0] fcw transposes_S16x64_S64x16_1_0
  let v101 : FVec F S512x16 .f32 := Host.dotGeneral dot_S512x64_S64x16_S512x16_1_0_0_1_n_n none v99 v100
  let v104 : FVec F S512x16 .f32 :=
    addf v101 (broadcastInDim S512x16 ![0, 1] bcast_S1x16_S512x16_0_1 (broadcastInDim S1x16 ![1] bcast_S16_S1x16_1 fcb))
  let v105 : FVec F S512x16 .f32 :=
    maximumf v104 (broadcastInDim S512x16 ![] bcast_S_S512x16 (constant S_ .f32 0x00000000#32))
  let v106 : FVec F S16x2 .f32 := transpose S16x2 [1, 0] fzw transposes_S2x16_S16x2_1_0
  let v107 : FVec F S512x2 .f32 := Host.dotGeneral dot_S512x16_S16x2_S512x2_1_0_0_1_n_n none v105 v106
  let v110 : FVec F S512x2 .f32 :=
    addf v107 (broadcastInDim S512x2 ![0, 1] bcast_S1x2_S512x2_0_1 (broadcastInDim S1x2 ![1] bcast_S2_S1x2_1 fzb))
  maximumf v110 (broadcastInDim S512x2 ![] bcast_S_S512x2 (constant S_ .f32 0x00000000#32))

def rowSoftmax2 (v111 : FVec F S512x2 .f32) : FVec F S512x2 .f32 :=
  let v112 : FVec F S512 .f32 :=
    Host.reduce FloatOps.maximumf v111 (constant S_ .f32 0xFF800000#32 : FVec F S_ .f32) reducesTo_S512x2_S512_d1 h_S_
  let v114 : FVec F S512 .f32 := maximumf (broadcastInDim S512 ![] bcast_S_S512 (constant S_ .f32 0xFF800000#32)) v112
  let v117 : FVec F S512x2 .f32 :=
    subf v111 (broadcastInDim S512x2 ![0, 1] bcast_S512x1_S512x2_0_1 (broadcastInDim S512x1 ![0] bcast_S512_S512x1_0 v114))
  let v118 : FVec F S512x2 .f32 := Host.exp v117
  let v119 : FVec F S512 .f32 :=
    Host.reduceAdd v118 (constant S_ .f32 0x00000000#32 : FVec F S_ .f32) reducesTo_S512x2_S512_d1 h_S_
  Host.divf v118 (broadcastInDim S512x2 ![0, 1] bcast_S512x1_S512x2_0_1 (broadcastInDim S512x1 ![0] bcast_S512_S512x1_0 v119))

theorem poolR_eq (h : FVec F S50000x64 .f32) (bt : IVec S50000 32) (fcw : FVec F S16x64 .f32) (fcb : FVec F S16 .f32)
    (fzw : FVec F S2x16 .f32) (fzb : FVec F S2 .f32) :
    poolR h bt fcw fcb fzw fzb = rowSoftmax2 (poolMlp (poolMean h bt) fcw fcb fzw fzb) := rfl

def opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

abbrev wA : List (Ref sig .tc) := [main_v0, main_v1, main_v2, main_v3]

theorem opsA_ok : List.Forall₂ Ok (opsA (F := F)) wA :=
  .cons (ok_unary ..) <| .cons (ok_reshape ..) <| .cons (ok_unary ..) <| .cons (ok_reshape ..) <| .nil

theorem outA_main_v1' (W : Valuation τ sig (Elt F)) :
    after opsA W (no_index (Proc.devRef .tc main_v1)) = srcOf (W (Proc.devRef .tc main_arg1)) := by
  unfold opsA; after_results; rfl

theorem outA_main_v3' (W : Valuation τ sig (Elt F)) :
    after opsA W (no_index (Proc.devRef .tc main_v3)) = dstOf (W (Proc.devRef .tc main_arg1)) := by
  unfold opsA; after_results; rfl

section
variable (c c_0 : TRef sig ⟨S_, .i32⟩) (v4 v1 v6 v7 v8 : TRef sig ⟨S800000, .i32⟩) (v5 : TRef sig ⟨S800000, .i1⟩) (v9 : TRef sig ⟨S800000x1, .i32⟩) (arg0 : TRef sig ⟨S50000x64, .f32⟩) (v10 : TRef sig ⟨S800000x64, .f32⟩)
def gatherOps : List (HloOp τ sig (Elt F)) :=
  [ TRef.nullary c (constantI S_ 32 0#32),
    TRef.unary c v4 (broadcastInDim S800000 ![] bcast_S_S800000),
    TRef.binary v1 v4 v5 (cmpi .slt),
    TRef.nullary c_0 (constantI S_ 32 50000#32),
    TRef.unary c_0 v6 (broadcastInDim S800000 ![] bcast_S_S800000),
    TRef.binary v1 v6 v7 addi,
    TRef.ternary v5 v7 v1 v8 select,
    TRef.unary v8 v9 (broadcastInDim S800000x1 ![0] bcast_S800000_S800000x1_0),
    TRef.binary arg0 v9 v10 (fun x i => Host.gather gather_S50000x64_S800000x1_S800000x64_1_0_n_n_0_1_164 x i) ]

theorem gatherOps_ok :
    List.Forall₂ Ok (gatherOps (F := F) c c_0 v4 v1 v6 v7 v8 v5 v9 arg0 v10) [c.ref, v4.ref, v5.ref, c_0.ref, v6.ref, v7.ref, v8.ref, v9.ref, v10.ref] :=
  .cons (ok_nullary ..) <| .cons (ok_unary ..) <| .cons (ok_binary ..) <| .cons (ok_nullary ..) <| .cons (ok_unary ..) <| .cons (ok_binary ..) <| .cons (ok_ternary ..) <| .cons (ok_unary ..) <| .cons (ok_binary ..) <| .nil
end

def opsG1s : List (HloOp τ sig (Elt F)) := gatherOps (.of main_c) (.of main_c_0) (.of main_v4) (.of main_v1) (.of main_v6) (.of main_v7) (.of main_v8) (.of main_v5) (.of main_v9) (.of main_arg0) (.of main_v10)

abbrev wG1s : List (Ref sig .tc) := [main_c, main_v4, main_v5, main_c_0, main_v6, main_v7, main_v8, main_v9, main_v10]

theorem opsG1s_ok : List.Forall₂ Ok (opsG1s (F := F)) wG1s :=
  gatherOps_ok ..

theorem outG1s_main_v10' (W : Valuation τ sig (Elt F)) :
    after opsG1s W (no_index (Proc.devRef .tc main_v10)) = gatherRows (W (Proc.devRef .tc main_arg0)) (W (Proc.devRef .tc main_v1)) := by
  unfold opsG1s gatherOps; after_results; rfl

def opsG1d : List (HloOp τ sig (Elt F)) := gatherOps (.of main_c_1) (.of main_c_2) (.of main_v11) (.of main_v3) (.of main_v13) (.of main_v14) (.of main_v15) (.of main_v12) (.of main_v16) (.of main_arg0) (.of main_v17)

abbrev wG1d : List (Ref sig .tc) := [main_c_1, main_v11, main_v12, main_c_2, main_v13, main_v14, main_v15, main_v16, main_v17]

theorem opsG1d_ok : List.Forall₂ Ok (opsG1d (F := F)) wG1d :=
  gatherOps_ok ..

theorem outG1d_main_v17' (W : Valuation τ sig (Elt F)) :
    after opsG1d W (no_index (Proc.devRef .tc main_v17)) = gatherRows (W (Proc.devRef .tc main_arg0)) (W (Proc.devRef .tc main_v3)) := by
  unfold opsG1d gatherOps; after_results; rfl

section
variable (arg4 : TRef sig ⟨S4x136, .f32⟩) (v19 : TRef sig ⟨S136x4, .f32⟩) (v18 : TRef sig ⟨S800000x136, .f32⟩) (v20 v22 v23 : TRef sig ⟨S800000x4, .f32⟩) (arg5 : TRef sig ⟨S4, .f32⟩) (v21 : TRef sig ⟨S1x4, .f32⟩) (cst : TRef sig ⟨S_, .f32⟩) (φ : fn_leaky_relu.Bufs)
def edgeLinOps : List (HloOp τ sig (Elt F)) :=
  [ TRef.unary arg4 v19 (transpose S136x4 [1, 0] · transposes_S4x136_S136x4_1_0),
    TRef.binary v18 v19 v20 (fun l r => Host.dotGeneral dot_S800000x136_S136x4_S800000x4_1_0_0_1_n_n none l r),
    TRef.unary arg5 v21 (broadcastInDim S1x4 ![1] bcast_S4_S1x4_1),
    TRef.unary v21 v22 (broadcastInDim S800000x4 ![0, 1] bcast_S1x4_S800000x4_0_1),
    TRef.binary v20 v22 v23 addf,
    TRef.nullary cst (constant S_ .f32 0x3C23D70A#32),
    TRef.nullary φ.cst (constant S_ .f32 0x00000000#32),
    TRef.unary φ.cst φ.v0 (broadcastInDim S800000x4 ![] bcast_S_S800000x4),
    TRef.binary v23 φ.v0 φ.v1 (cmpf (F := F) .oge),
    TRef.unary cst φ.v2 id,
    TRef.unary φ.v2 φ.v3 (broadcastInDim S800000x4 ![] bcast_S_S800000x4),
    TRef.binary φ.v3 v23 φ.v4 mulf,
    TRef.ternary φ.v1 v23 φ.v4 φ.call0.v0 select ]

theorem edgeLinOps_ok :
    List.Forall₂ Ok (edgeLinOps (F := F) arg4 v19 v18 v20 v22 v23 arg5 v21 cst φ) [v19.ref, v20.ref, v21.ref, v22.ref, v23.ref, cst.ref, φ.cst.ref, φ.v0.ref, φ.v1.ref, φ.v2.ref, φ.v3.ref, φ.v4.ref, φ.call0.v0.ref] :=
  .cons (ok_unary ..) <| .cons (ok_binary ..) <| .cons (ok_unary ..) <| .cons (ok_unary ..) <| .cons (ok_binary ..) <| .cons (ok_nullary ..) <| .cons (ok_nullary ..) <| .cons (ok_unary ..) <| .cons (ok_binary ..) <| .cons (ok_unary ..) <| .cons (ok_unary ..) <| .cons (ok_binary ..) <| .cons (ok_ternary ..) <| .nil
end

def opsE1a : List (HloOp τ sig (Elt F)) := StableHlo.nary ![main_v10, main_v17, main_arg2] main_v18 (fun u => concatenate S800000x136 1 [⟨S800000x64, u 0⟩, ⟨S800000x64, u 1⟩, ⟨S800000x8, u 2⟩] concatenates_S800000x64_S800000x64_S800000x8_S800000x136_d1) :: edgeLinOps (.of main_arg4) (.of main_v19) (.of main_v18) (.of main_v20) (.of main_v22) (.of main_v23) (.of main_arg5) (.of main_v21) (.of main_cst) main_call0

abbrev wE1a : List (Ref sig .tc) := [main_v18, main_v19, main_v20, main_v21, main_v22, main_v23, main_cst, main_call0_cst, main_call0_v0, main_call0_v1, main_call0_v2, main_call0_v3, main_call0_v4, main_v24]

theorem opsE1a_ok : List.Forall₂ Ok (opsE1a (F := F)) wE1a :=
  .cons (ok_nary ..) (edgeLinOps_ok ..)

theorem outE1a_main_v24' (W : Valuation τ sig (Elt F)) :
    after opsE1a W (no_index (Proc.devRef .tc main_v24)) = edgeLin (W (Proc.devRef .tc main_v10)) (W (Proc.devRef .tc main_v17)) (W (Proc.devRef .tc main_arg2)) (W (Proc.devRef .tc main_arg4)) (W (Proc.devRef .tc main_arg5)) := by
  unfold opsE1a edgeLinOps; after_results; rfl

def opsE1b : List (HloOp τ sig (Elt F)) :=
  [ StableHlo.nullary main_cst_3 (constant S_ .f32 0xFF800000#32),
    StableHlo.binary main_v24 main_cst_3 main_v25 ((fun x v => Host.reduce FloatOps.maximumf x v reducesTo_S800000x4_S800000_d1 h_S_) : (⟨S800000x4, .f32⟩ : BufTy).Contents (Elt F) → (⟨S_, .f32⟩ : BufTy).Contents (Elt F) → (⟨S800000, .f32⟩ : BufTy).Contents (Elt F)),
    StableHlo.nullary main_cst_4 (constant S_ .f32 0xFF800000#32),
    StableHlo.unary main_cst_4 main_v26 (broadcastInDim S800000 ![] bcast_S_S800000 : (⟨S_, .f32⟩ : BufTy).Contents (Elt F) → (⟨S800000, .f32⟩ : BufTy).Contents (Elt F)),
    StableHlo.binary main_v26 main_v25 main_v27 (maximumf : (⟨S800000, .f32⟩ : BufTy).Contents (Elt F) → (⟨S800000, .f32⟩ : BufTy).Contents (Elt F) → (⟨S800000, .f32⟩ : BufTy).Contents (Elt F)),
    StableHlo.unary main_v27 main_v28 (broadcastInDim S800000x1 ![0] bcast_S800000_S800000x1_0 : (⟨S800000, .f32⟩ : BufTy).Contents (Elt F) → (⟨S800000x1, .f32⟩ : BufTy).Contents (Elt F)),
    StableHlo.unary main_v28 main_v29 (broadcastInDim S800000x4 ![0, 1] bcast_S800000x1_S800000x4_0_1 : (⟨S800000x1, .f32⟩ : BufTy).Contents (Elt F) → (⟨S800000x4, .f32⟩ : BufTy).Contents (Elt F)),
    StableHlo.binary main_v24 main_v29 main_v30 (subf : (⟨S800000x4, .f32⟩ : BufTy).Contents (Elt F) → (⟨S800000x4, .f32⟩ : BufTy).Contents (Elt F) → (⟨S800000x4, .f32⟩ : BufTy).Contents (Elt F)),
    StableHlo.unary main_v30 main_v31 (Host.exp : (⟨S800000x4, .f32⟩ : BufTy).Contents (Elt F) → (⟨S800000x4, .f32⟩ : BufTy).Contents (Elt F)),
    StableHlo.nullary main_cst_5 (constant S_ .f32 0x00000000#32),
    StableHlo.binary main_v31 main_cst_5 main_v32 ((fun x v => Host.reduceAdd x v reducesTo_S800000x4_S800000_d1 h_S_) : (⟨S800000x4, .f32⟩ : BufTy).Contents (Elt F) → (⟨S_, .f32⟩ : BufTy).Contents (Elt F) → (⟨S800000, .f32⟩ : BufTy).Contents (Elt F)),
    StableHlo.unary main_v32 main_v33 (broadcastInDim S800000x1 ![0] bcast_S800000_S800000x1_0 : (⟨S800000, .f32⟩ : BufTy).Contents (Elt F) → (⟨S800000x1, .f32⟩ : BufTy).Contents (Elt F)),
    StableHlo.unary main_v33 main_v34 (broadcastInDim S800000x4 ![0, 1] bcast_S800000x1_S800000x4_0_1 : (⟨S800000x1, .f32⟩ : BufTy).Contents (Elt F) → (⟨S800000x4, .f32⟩ : BufTy).Contents (Elt F)),
    StableHlo.binary main_v31 main_v34 main_v35 (Host.divf : (⟨S800000x4, .f32⟩ : BufTy).Contents (Elt F) → (⟨S800000x4, .f32⟩ : BufTy).Contents (Elt F) → (⟨S800000x4, .f32⟩ : BufTy).Contents (Elt F)) ]

abbrev wE1b : List (Ref sig .tc) := [main_cst_3, main_v25, main_cst_4, main_v26, main_v27, main_v28, main_v29, main_v30, main_v31, main_cst_5, main_v32, main_v33, main_v34, main_v35]

theorem opsE1b_ok : List.Forall₂ Ok (opsE1b (F := F)) wE1b :=
  .cons (ok_nullary ..) <| .cons (ok_binary ..) <| .cons (ok_nullary ..) <| .cons (ok_unary ..) <| .cons (ok_binary ..) <| .cons (ok_unary ..) <| .cons (ok_unary ..) <| .cons (ok_binary ..) <| .cons (ok_unary ..) <| .cons (ok_nullary ..) <| .cons (ok_binary ..) <| .cons (ok_unary ..) <| .cons (ok_unary ..) <| .cons (ok_binary ..) <| .nil

theorem outE1b_main_v35' (W : Valuation τ sig (Elt F)) :
    after opsE1b W (no_index (Proc.devRef .tc main_v35)) = rowSoftmax4 (W (Proc.devRef .tc main_v24)) := by
  unfold opsE1b; after_results; rfl

section
variable (cst_6 : TRef sig ⟨S_, .f32⟩) (v36 v38 : TRef sig ⟨S50000x4, .f32⟩) (v1 : TRef sig ⟨S800000, .i32⟩) (v37 : TRef sig ⟨S800000x1, .i32⟩) (v35 : TRef sig ⟨S800000x4, .f32⟩)
def aggOps : List (HloOp τ sig (Elt F)) :=
  [ TRef.nullary cst_6 (constant S_ .f32 0x00000000#32),
    TRef.unary cst_6 v36 (broadcastInDim S50000x4 ![] bcast_S_S50000x4),
    TRef.unary v1 v37 (broadcastInDim S800000x1 ![0] bcast_S800000_S800000x1_0),
    TRef.ternary v36 v37 v35 v38 (fun x i u => Host.scatterAdd scatter_S50000x4_S800000x1_S800000x4_1_0_0_1 x i u) ]

theorem aggOps_ok :
    List.Forall₂ Ok (aggOps (F := F) cst_6 v36 v38 v1 v37 v35) [cst_6.ref, v36.ref, v37.ref, v38.ref] :=
  .cons (ok_nullary ..) <| .cons (ok_unary ..) <| .cons (ok_unary ..) <| .cons (ok_ternary ..) <| .nil
end

def opsS1 : List (HloOp τ sig (Elt F)) := aggOps (.of main_cst_6) (.of main_v36) (.of main_v38) (.of main_v1) (.of main_v37) (.of main_v35)

abbrev wS1 : List (Ref sig .tc) := [main_cst_6, main_v36, main_v37, main_v38]

theorem opsS1_ok : List.Forall₂ Ok (opsS1 (F := F)) wS1 :=
  aggOps_ok ..

theorem outS1_main_v38' (W : Valuation τ sig (Elt F)) :
    after opsS1 W (no_index (Proc.devRef .tc main_v38)) = aggR (W (Proc.devRef .tc main_v1)) (W (Proc.devRef .tc main_v35)) := by
  unfold opsS1 aggOps; after_results; rfl

section
variable (arg0 v41 v43 v44 : TRef sig ⟨S50000x64, .f32⟩) (v38 : TRef sig ⟨S50000x4, .f32⟩) (v39 : TRef sig ⟨S50000x68, .f32⟩) (arg6 : TRef sig ⟨S64x68, .f32⟩) (v40 : TRef sig ⟨S68x64, .f32⟩) (arg7 : TRef sig ⟨S64, .f32⟩) (v42 : TRef sig ⟨S1x64, .f32⟩) (φ : fn_relu.Bufs)
def nodeOps : List (HloOp τ sig (Elt F)) :=
  [ TRef.binary arg0 v38 v39 (fun a b => concatenate S50000x68 1 [⟨S50000x64, a⟩, ⟨S50000x4, b⟩] concatenates_S50000x64_S50000x4_S50000x68_d1),
    TRef.unary arg6 v40 (transpose S68x64 [1, 0] · transposes_S64x68_S68x64_1_0),
    TRef.binary v39 v40 v41 (fun l r => Host.dotGeneral dot_S50000x68_S68x64_S50000x64_1_0_0_1_n_n none l r),
    TRef.unary arg7 v42 (broadcastInDim S1x64 ![1] bcast_S64_S1x64_1),
    TRef.unary v42 v43 (broadcastInDim S50000x64 ![0, 1] bcast_S1x64_S50000x64_0_1),
    TRef.binary v41 v43 v44 addf,
    TRef.nullary φ.cst (constant S_ .f32 0x00000000#32),
    TRef.unary φ.cst φ.v0 (broadcastInDim S50000x64 ![] bcast_S_S50000x64),
    TRef.binary v44 φ.v0 φ.v1 maximumf ]

theorem nodeOps_ok :
    List.Forall₂ Ok (nodeOps (F := F) arg0 v41 v43 v44 v38 v39 arg6 v40 arg7 v42 φ) [v39.ref, v40.ref, v41.ref, v42.ref, v43.ref, v44.ref, φ.cst.ref, φ.v0.ref, φ.v1.ref] :=
  .cons (ok_binary ..) <| .cons (ok_unary ..) <| .cons (ok_binary ..) <| .cons (ok_unary ..) <| .cons (ok_unary ..) <| .cons (ok_binary ..) <| .cons (ok_nullary ..) <| .cons (ok_unary ..) <| .cons (ok_binary ..) <| .nil
end

def opsN1 : List (HloOp τ sig (Elt F)) := nodeOps (.of main_arg0) (.of main_v41) (.of main_v43) (.of main_v44) (.of main_v38) (.of main_v39) (.of main_arg6) (.of main_v40) (.of main_arg7) (.of main_v42) main_call1

abbrev wN1 : List (Ref sig .tc) := [main_v39, main_v40, main_v41, main_v42, main_v43, main_v44, main_call1_cst, main_call1_v0, main_v45]

theorem opsN1_ok : List.Forall₂ Ok (opsN1 (F := F)) wN1 :=
  nodeOps_ok ..

theorem outN1_main_v45' (W : Valuation τ sig (Elt F)) :
    after opsN1 W (no_index (Proc.devRef .tc main_v45)) = nodeR (W (Proc.devRef .tc main_arg0)) (W (Proc.devRef .tc main_v38)) (W (Proc.devRef .tc main_arg6)) (W (Proc.devRef .tc main_arg7)) := by
  unfold opsN1 nodeOps; after_results; rfl

def opsG2s : List (HloOp τ sig (Elt F)) := gatherOps (.of main_c_7) (.of main_c_8) (.of main_v46) (.of main_v1) (.of main_v48) (.of main_v49) (.of main_v50) (.of main_v47) (.of main_v51) (.of main_v45) (.of main_v52)

def opsG2sa : List (HloOp τ sig (Elt F)) := opsG2s.take 5

abbrev wG2sa : List (Ref sig .tc) := [main_c_7, main_v46, main_v47, main_c_8, main_v48]

theorem opsG2sa_ok : List.Forall₂ Ok (opsG2sa (F := F)) wG2sa :=
  List.forall₂_take 5 (gatherOps_ok ..)

def opsG2sb : List (HloOp τ sig (Elt F)) := opsG2s.drop 5

abbrev wG2sb : List (Ref sig .tc) := [main_v49, main_v50, main_v51, main_v52]

theorem opsG2sb_ok : List.Forall₂ Ok (opsG2sb (F := F)) wG2sb :=
  List.forall₂_drop 5 (gatherOps_ok ..)

theorem outG2sb_main_v52' (W : Valuation τ sig (Elt F)) :
    after opsG2sb (after opsG2sa W) (no_index (Proc.devRef .tc main_v52)) = gatherRows (W (Proc.devRef .tc main_v45)) (W (Proc.devRef .tc main_v1)) := by
  unfold opsG2sb opsG2s gatherOps; simp only [List.drop]; after_results; rfl

def opsG2d : List (HloOp τ sig (Elt F)) := gatherOps (.of main_c_9) (.of main_c_10) (.of main_v53) (.of main_v3) (.of main_v55) (.of main_v56) (.of main_v57) (.of main_v54) (.of main_v58) (.of main_v45) (.of main_v59)

abbrev wG2d : List (Ref sig .tc) := [main_c_9, main_v53, main_v54, main_c_10, main_v55, main_v56, main_v57, main_v58, main_v59]

theorem opsG2d_ok : List.Forall₂ Ok (opsG2d (F := F)) wG2d :=
  gatherOps_ok ..

theorem outG2d_main_v59' (W : Valuation τ sig (Elt F)) :
    after opsG2d W (no_index (Proc.devRef .tc main_v59)) = gatherRows (W (Proc.devRef .tc main_v45)) (W (Proc.devRef .tc main_v3)) := by
  unfold opsG2d gatherOps; after_results; rfl

def opsE2a : List (HloOp τ sig (Elt F)) := StableHlo.nary ![main_v52, main_v59, main_arg2] main_v60 (fun u => concatenate S800000x136 1 [⟨S800000x64, u 0⟩, ⟨S800000x64, u 1⟩, ⟨S800000x8, u 2⟩] concatenates_S800000x64_S800000x64_S800000x8_S800000x136_d1) :: edgeLinOps (.of main_arg8) (.of main_v61) (.of main_v60) (.of main_v62) (.of main_v64) (.of main_v65) (.of main_arg9) (.of main_v63) (.of main_cst_11) main_call2

abbrev wE2a : List (Ref sig .tc) := [main_v60, main_v61, main_v62, main_v63, main_v64, main_v65, main_cst_11, main_call2_cst, main_call2_v0, main_call2_v1, main_call2_v2, main_call2_v3, main_call2_v4, main_v66]

theorem opsE2a_ok : List.Forall₂ Ok (opsE2a (F := F)) wE2a :=
  .cons (ok_nary ..) (edgeLinOps_ok ..)

theorem outE2a_main_v66' (W : Valuation τ sig (Elt F)) :
    after opsE2a W (no_index (Proc.devRef .tc main_v66)) = edgeLin (W (Proc.devRef .tc main_v52)) (W (Proc.devRef .tc main_v59)) (W (Proc.devRef .tc main_arg2)) (W (Proc.devRef .tc main_arg8)) (W (Proc.devRef .tc main_arg9)) := by
  unfold opsE2a edgeLinOps; after_results; rfl

def opsE2b : List (HloOp τ sig (Elt F)) :=
  [ StableHlo.nullary main_cst_12 (constant S_ .f32 0xFF800000#32),
    StableHlo.binary main_v66 main_cst_12 main_v67 ((fun x v => Host.reduce FloatOps.maximumf x v reducesTo_S800000x4_S800000_d1 h_S_) : (⟨S800000x4, .f32⟩ : BufTy).Contents (Elt F) → (⟨S_, .f32⟩ : BufTy).Contents (Elt F) → (⟨S800000, .f32⟩ : BufTy).Contents (Elt F)),
    StableHlo.nullary main_cst_13 (constant S_ .f32 0xFF800000#32),
    StableHlo.unary main_cst_13 main_v68 (broadcastInDim S800000 ![] bcast_S_S800000 : (⟨S_, .f32⟩ : BufTy).Contents (Elt F) → (⟨S800000, .f32⟩ : BufTy).Contents (Elt F)),
    StableHlo.binary main_v68 main_v67 main_v69 (maximumf : (⟨S800000, .f32⟩ : BufTy).Contents (Elt F) → (⟨S800000, .f32⟩ : BufTy).Contents (Elt F) → (⟨S800000, .f32⟩ : BufTy).Contents (Elt F)),
    StableHlo.unary main_v69 main_v70 (broadcastInDim S800000x1 ![0] bcast_S800000_S800000x1_0 : (⟨S800000, .f32⟩ : BufTy).Contents (Elt F) → (⟨S800000x1, .f32⟩ : BufTy).Contents (Elt F)),
    StableHlo.unary main_v70 main_v71 (broadcastInDim S800000x4 ![0, 1] bcast_S800000x1_S800000x4_0_1 : (⟨S800000x1, .f32⟩ : BufTy).Contents (Elt F) → (⟨S800000x4, .f32⟩ : BufTy).Contents (Elt F)),
    StableHlo.binary main_v66 main_v71 main_v72 (subf : (⟨S800000x4, .f32⟩ : BufTy).Contents (Elt F) → (⟨S800000x4, .f32⟩ : BufTy).Contents (Elt F) → (⟨S800000x4, .f32⟩ : BufTy).Contents (Elt F)),
    StableHlo.unary main_v72 main_v73 (Host.exp : (⟨S800000x4, .f32⟩ : BufTy).Contents (Elt F) → (⟨S800000x4, .f32⟩ : BufTy).Contents (Elt F)),
    StableHlo.nullary main_cst_14 (constant S_ .f32 0x00000000#32),
    StableHlo.binary main_v73 main_cst_14 main_v74 ((fun x v => Host.reduceAdd x v reducesTo_S800000x4_S800000_d1 h_S_) : (⟨S800000x4, .f32⟩ : BufTy).Contents (Elt F) → (⟨S_, .f32⟩ : BufTy).Contents (Elt F) → (⟨S800000, .f32⟩ : BufTy).Contents (Elt F)),
    StableHlo.unary main_v74 main_v75 (broadcastInDim S800000x1 ![0] bcast_S800000_S800000x1_0 : (⟨S800000, .f32⟩ : BufTy).Contents (Elt F) → (⟨S800000x1, .f32⟩ : BufTy).Contents (Elt F)),
    StableHlo.unary main_v75 main_v76 (broadcastInDim S800000x4 ![0, 1] bcast_S800000x1_S800000x4_0_1 : (⟨S800000x1, .f32⟩ : BufTy).Contents (Elt F) → (⟨S800000x4, .f32⟩ : BufTy).Contents (Elt F)),
    StableHlo.binary main_v73 main_v76 main_v77 (Host.divf : (⟨S800000x4, .f32⟩ : BufTy).Contents (Elt F) → (⟨S800000x4, .f32⟩ : BufTy).Contents (Elt F) → (⟨S800000x4, .f32⟩ : BufTy).Contents (Elt F)) ]

abbrev wE2b : List (Ref sig .tc) := [main_cst_12, main_v67, main_cst_13, main_v68, main_v69, main_v70, main_v71, main_v72, main_v73, main_cst_14, main_v74, main_v75, main_v76, main_v77]

theorem opsE2b_ok : List.Forall₂ Ok (opsE2b (F := F)) wE2b :=
  .cons (ok_nullary ..) <| .cons (ok_binary ..) <| .cons (ok_nullary ..) <| .cons (ok_unary ..) <| .cons (ok_binary ..) <| .cons (ok_unary ..) <| .cons (ok_unary ..) <| .cons (ok_binary ..) <| .cons (ok_unary ..) <| .cons (ok_nullary ..) <| .cons (ok_binary ..) <| .cons (ok_unary ..) <| .cons (ok_unary ..) <| .cons (ok_binary ..) <| .nil

theorem outE2b_main_v77' (W : Valuation τ sig (Elt F)) :
    after opsE2b W (no_index (Proc.devRef .tc main_v77)) = rowSoftmax4 (W (Proc.devRef .tc main_v66)) := by
  unfold opsE2b; after_results; rfl

def opsS2 : List (HloOp τ sig (Elt F)) := aggOps (.of main_cst_15) (.of main_v78) (.of main_v80) (.of main_v1) (.of main_v79) (.of main_v77)

abbrev wS2 : List (Ref sig .tc) := [main_cst_15, main_v78, main_v79, main_v80]

theorem opsS2_ok : List.Forall₂ Ok (opsS2 (F := F)) wS2 :=
  aggOps_ok ..

theorem outS2_main_v80' (W : Valuation τ sig (Elt F)) :
    after opsS2 W (no_index (Proc.devRef .tc main_v80)) = aggR (W (Proc.devRef .tc main_v1)) (W (Proc.devRef .tc main_v77)) := by
  unfold opsS2 aggOps; after_results; rfl

def opsN2 : List (HloOp τ sig (Elt F)) := nodeOps (.of main_v45) (.of main_v83) (.of main_v85) (.of main_v86) (.of main_v80) (.of main_v81) (.of main_arg10) (.of main_v82) (.of main_arg11) (.of main_v84) main_call3

abbrev wN2 : List (Ref sig .tc) := [main_v81, main_v82, main_v83, main_v84, main_v85, main_v86, main_call3_cst, main_call3_v0, main_v87]

theorem opsN2_ok : List.Forall₂ Ok (opsN2 (F := F)) wN2 :=
  nodeOps_ok ..

theorem outN2_main_v87' (W : Valuation τ sig (Elt F)) :
    after opsN2 W (no_index (Proc.devRef .tc main_v87)) = nodeR (W (Proc.devRef .tc main_v45)) (W (Proc.devRef .tc main_v80)) (W (Proc.devRef .tc main_arg10)) (W (Proc.devRef .tc main_arg11)) := by
  unfold opsN2 nodeOps; after_results; rfl

def opsP1a : List (HloOp τ sig (Elt F)) :=
  [ StableHlo.nullary main_cst_16 (constant S_ .f32 0x00000000#32),
    StableHlo.unary main_cst_16 main_v88 (broadcastInDim S512x64 ![] bcast_S_S512x64 : (⟨S_, .f32⟩ : BufTy).Contents (Elt F) → (⟨S512x64, .f32⟩ : BufTy).Contents (Elt F)),
    StableHlo.unary main_arg3 main_v89 (broadcastInDim S50000x1 ![0] bcast_S50000_S50000x1_0 : (⟨S50000, .i32⟩ : BufTy).Contents (Elt F) → (⟨S50000x1, .i32⟩ : BufTy).Contents (Elt F)),
    StableHlo.ternary main_v88 main_v89 main_v87 main_v90 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_cst_17 (constant S_ .f32 0x3F800000#32),
    StableHlo.unary main_cst_17 main_v91 (broadcastInDim S50000 ![] bcast_S_S50000 : (⟨S_, .f32⟩ : BufTy).Contents (Elt F) → (⟨S50000, .f32⟩ : BufTy).Contents (Elt F)),
    StableHlo.nullary main_cst_18 (constant S_ .f32 0x00000000#32),
    StableHlo.unary main_cst_18 main_v92 (broadcastInDim S512 ![] bcast_S_S512 : (⟨S_, .f32⟩ : BufTy).Contents (Elt F) → (⟨S512, .f32⟩ : BufTy).Contents (Elt F)),
    StableHlo.unary main_arg3 main_v93 (broadcastInDim S50000x1 ![0] bcast_S50000_S50000x1_0 : (⟨S50000, .i32⟩ : BufTy).Contents (Elt F) → (⟨S50000x1, .i32⟩ : BufTy).Contents (Elt F)),
    StableHlo.ternary main_v92 main_v93 main_v91 main_v94 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    StableHlo.nullary main_cst_19 (constant S_ .f32 0x3F800000#32),
    StableHlo.unary main_cst_19 main_v95 (broadcastInDim S512 ![] bcast_S_S512 : (⟨S_, .f32⟩ : BufTy).Contents (Elt F) → (⟨S512, .f32⟩ : BufTy).Contents (Elt F)),
    StableHlo.binary main_v94 main_v95 main_v96 (maximumf : (⟨S512, .f32⟩ : BufTy).Contents (Elt F) → (⟨S512, .f32⟩ : BufTy).Contents (Elt F) → (⟨S512, .f32⟩ : BufTy).Contents (Elt F)),
    StableHlo.unary main_v96 main_v97 (broadcastInDim S512x1 ![0] bcast_S512_S512x1_0 : (⟨S512, .f32⟩ : BufTy).Contents (Elt F) → (⟨S512x1, .f32⟩ : BufTy).Contents (Elt F)) ]

abbrev wP1a : List (Ref sig .tc) := [main_cst_16, main_v88, main_v89, main_v90, main_cst_17, main_v91, main_cst_18, main_v92, main_v93, main_v94, main_cst_19, main_v95, main_v96, main_v97]

theorem opsP1a_ok : List.Forall₂ Ok (opsP1a (F := F)) wP1a :=
  .cons (ok_nullary ..) <| .cons (ok_unary ..) <| .cons (ok_unary ..) <| .cons (ok_ternary ..) <| .cons (ok_nullary ..) <| .cons (ok_unary ..) <| .cons (ok_nullary ..) <| .cons (ok_unary ..) <| .cons (ok_unary ..) <| .cons (ok_ternary ..) <| .cons (ok_nullary ..) <| .cons (ok_unary ..) <| .cons (ok_binary ..) <| .cons (ok_unary ..) <| .nil

def opsP1b : List (HloOp τ sig (Elt F)) :=
  [ StableHlo.unary main_v97 main_v98 (broadcastInDim S512x64 ![0, 1] bcast_S512x1_S512x64_0_1 : (⟨S512x1, .f32⟩ : BufTy).Contents (Elt F) → (⟨S512x64, .f32⟩ : BufTy).Contents (Elt F)),
    StableHlo.binary main_v90 main_v98 main_v99 (Host.divf : (⟨S512x64, .f32⟩ : BufTy).Contents (Elt F) → (⟨S512x64, .f32⟩ : BufTy).Contents (Elt F) → (⟨S512x64, .f32⟩ : BufTy).Contents (Elt F)) ]

abbrev wP1b : List (Ref sig .tc) := [main_v98, main_v99]

theorem opsP1b_ok : List.Forall₂ Ok (opsP1b (F := F)) wP1b :=
  .cons (ok_unary ..) <| .cons (ok_binary ..) <| .nil

theorem outP1b_main_v99' (W : Valuation τ sig (Elt F)) :
    after opsP1b (after opsP1a W) (no_index (Proc.devRef .tc main_v99)) = poolMean (W (Proc.devRef .tc main_v87)) (W (Proc.devRef .tc main_arg3)) := by
  unfold opsP1b; after_results; rfl

def opsP2 : List (HloOp τ sig (Elt F)) :=
  [ StableHlo.unary main_arg12 main_v100 ((transpose S64x16 [1, 0] · transposes_S16x64_S64x16_1_0) : (⟨S16x64, .f32⟩ : BufTy).Contents (Elt F) → (⟨S64x16, .f32⟩ : BufTy).Contents (Elt F)),
    StableHlo.binary main_v99 main_v100 main_v101 ((fun l r => Host.dotGeneral dot_S512x64_S64x16_S512x16_1_0_0_1_n_n none l r) : (⟨S512x64, .f32⟩ : BufTy).Contents (Elt F) → (⟨S64x16, .f32⟩ : BufTy).Contents (Elt F) → (⟨S512x16, .f32⟩ : BufTy).Contents (Elt F)),
    StableHlo.unary main_arg13 main_v102 (broadcastInDim S1x16 ![1] bcast_S16_S1x16_1 : (⟨S16, .f32⟩ : BufTy).Contents (Elt F) → (⟨S1x16, .f32⟩ : BufTy).Contents (Elt F)),
    StableHlo.unary main_v102 main_v103 (broadcastInDim S512x16 ![0, 1] bcast_S1x16_S512x16_0_1 : (⟨S1x16, .f32⟩ : BufTy).Contents (Elt F) → (⟨S512x16, .f32⟩ : BufTy).Contents (Elt F)),
    StableHlo.binary main_v101 main_v103 main_v104 (addf : (⟨S512x16, .f32⟩ : BufTy).Contents (Elt F) → (⟨S512x16, .f32⟩ : BufTy).Contents (Elt F) → (⟨S512x16, .f32⟩ : BufTy).Contents (Elt F)),
    TRef.nullary main_call4.cst (constant S_ .f32 0x00000000#32),
    TRef.unary main_call4.cst main_call4.v0 (broadcastInDim S512x16 ![] bcast_S_S512x16),
    TRef.binary (.of main_v104) main_call4.v0 main_call4.v1 maximumf,
    StableHlo.unary main_arg14 main_v106 ((transpose S16x2 [1, 0] · transposes_S2x16_S16x2_1_0) : (⟨S2x16, .f32⟩ : BufTy).Contents (Elt F) → (⟨S16x2, .f32⟩ : BufTy).Contents (Elt F)),
    StableHlo.binary main_v105 main_v106 main_v107 ((fun l r => Host.dotGeneral dot_S512x16_S16x2_S512x2_1_0_0_1_n_n none l r) : (⟨S512x16, .f32⟩ : BufTy).Contents (Elt F) → (⟨S16x2, .f32⟩ : BufTy).Contents (Elt F) → (⟨S512x2, .f32⟩ : BufTy).Contents (Elt F)),
    StableHlo.unary main_arg15 main_v108 (broadcastInDim S1x2 ![1] bcast_S2_S1x2_1 : (⟨S2, .f32⟩ : BufTy).Contents (Elt F) → (⟨S1x2, .f32⟩ : BufTy).Contents (Elt F)),
    StableHlo.unary main_v108 main_v109 (broadcastInDim S512x2 ![0, 1] bcast_S1x2_S512x2_0_1 : (⟨S1x2, .f32⟩ : BufTy).Contents (Elt F) → (⟨S512x2, .f32⟩ : BufTy).Contents (Elt F)),
    StableHlo.binary main_v107 main_v109 main_v110 (addf : (⟨S512x2, .f32⟩ : BufTy).Contents (Elt F) → (⟨S512x2, .f32⟩ : BufTy).Contents (Elt F) → (⟨S512x2, .f32⟩ : BufTy).Contents (Elt F)),
    TRef.nullary main_call5.cst (constant S_ .f32 0x00000000#32),
    TRef.unary main_call5.cst main_call5.v0 (broadcastInDim S512x2 ![] bcast_S_S512x2),
    TRef.binary (.of main_v110) main_call5.v0 main_call5.v1 maximumf ]

abbrev wP2 : List (Ref sig .tc) := [main_v100, main_v101, main_v102, main_v103, main_v104, main_call4_cst, main_call4_v0, main_v105, main_v106, main_v107, main_v108, main_v109, main_v110, main_call5_cst, main_call5_v0, main_v111]

theorem opsP2_ok : List.Forall₂ Ok (opsP2 (F := F)) wP2 :=
  .cons (ok_unary ..) <| .cons (ok_binary ..) <| .cons (ok_unary ..) <| .cons (ok_unary ..) <| .cons (ok_binary ..) <| .cons (ok_nullary ..) <| .cons (ok_unary ..) <| .cons (ok_binary ..) <| .cons (ok_unary ..) <| .cons (ok_binary ..) <| .cons (ok_unary ..) <| .cons (ok_unary ..) <| .cons (ok_binary ..) <| .cons (ok_nullary ..) <| .cons (ok_unary ..) <| .cons (ok_binary ..) <| .nil

theorem outP2_main_v111' (W : Valuation τ sig (Elt F)) :
    after opsP2 W (no_index (Proc.devRef .tc main_v111)) = poolMlp (W (Proc.devRef .tc main_v99)) (W (Proc.devRef .tc main_arg12)) (W (Proc.devRef .tc main_arg13)) (W (Proc.devRef .tc main_arg14)) (W (Proc.devRef .tc main_arg15)) := by
  unfold opsP2; after_results; rfl

def opsP3 : List (HloOp τ sig (Elt F)) :=
  [ StableHlo.nullary main_cst_20 (constant S_ .f32 0xFF800000#32),
    StableHlo.binary main_v111 main_cst_20 main_v112 ((fun x v => Host.reduce FloatOps.maximumf x v reducesTo_S512x2_S512_d1 h_S_) : (⟨S512x2, .f32⟩ : BufTy).Contents (Elt F) → (⟨S_, .f32⟩ : BufTy).Contents (Elt F) → (⟨S512, .f32⟩ : BufTy).Contents (Elt F)),
    StableHlo.nullary main_cst_21 (constant S_ .f32 0xFF800000#32),
    StableHlo.unary main_cst_21 main_v113 (broadcastInDim S512 ![] bcast_S_S512 : (⟨S_, .f32⟩ : BufTy).Contents (Elt F) → (⟨S512, .f32⟩ : BufTy).Contents (Elt F)),
    StableHlo.binary main_v113 main_v112 main_v114 (maximumf : (⟨S512, .f32⟩ : BufTy).Contents (Elt F) → (⟨S512, .f32⟩ : BufTy).Contents (Elt F) → (⟨S512, .f32⟩ : BufTy).Contents (Elt F)),
    StableHlo.unary main_v114 main_v115 (broadcastInDim S512x1 ![0] bcast_S512_S512x1_0 : (⟨S512, .f32⟩ : BufTy).Contents (Elt F) → (⟨S512x1, .f32⟩ : BufTy).Contents (Elt F)),
    StableHlo.unary main_v115 main_v116 (broadcastInDim S512x2 ![0, 1] bcast_S512x1_S512x2_0_1 : (⟨S512x1, .f32⟩ : BufTy).Contents (Elt F) → (⟨S512x2, .f32⟩ : BufTy).Contents (Elt F)),
    StableHlo.binary main_v111 main_v116 main_v117 (subf : (⟨S512x2, .f32⟩ : BufTy).Contents (Elt F) → (⟨S512x2, .f32⟩ : BufTy).Contents (Elt F) → (⟨S512x2, .f32⟩ : BufTy).Contents (Elt F)),
    StableHlo.unary main_v117 main_v118 (Host.exp : (⟨S512x2, .f32⟩ : BufTy).Contents (Elt F) → (⟨S512x2, .f32⟩ : BufTy).Contents (Elt F)),
    StableHlo.nullary main_cst_22 (constant S_ .f32 0x00000000#32),
    StableHlo.binary main_v118 main_cst_22 main_v119 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    StableHlo.unary main_v119 main_v120 (broadcastInDim S512x1 ![0] bcast_S512_S512x1_0 : (⟨S512, .f32⟩ : BufTy).Contents (Elt F) → (⟨S512x1, .f32⟩ : BufTy).Contents (Elt F)),
    StableHlo.unary main_v120 main_v121 (broadcastInDim S512x2 ![0, 1] bcast_S512x1_S512x2_0_1 : (⟨S512x1, .f32⟩ : BufTy).Contents (Elt F) → (⟨S512x2, .f32⟩ : BufTy).Contents (Elt F)),
    StableHlo.binary main_v118 main_v121 main_v122 (Host.divf : (⟨S512x2, .f32⟩ : BufTy).Contents (Elt F) → (⟨S512x2, .f32⟩ : BufTy).Contents (Elt F) → (⟨S512x2, .f32⟩ : BufTy).Contents (Elt F)) ]

abbrev wP3 : List (Ref sig .tc) := [main_cst_20, main_v112, main_cst_21, main_v113, main_v114, main_v115, main_v116, main_v117, main_v118, main_cst_22, main_v119, main_v120, main_v121, main_v122]

theorem opsP3_ok : List.Forall₂ Ok (opsP3 (F := F)) wP3 :=
  .cons (ok_nullary ..) <| .cons (ok_binary ..) <| .cons (ok_nullary ..) <| .cons (ok_unary ..) <| .cons (ok_binary ..) <| .cons (ok_unary ..) <| .cons (ok_unary ..) <| .cons (ok_binary ..) <| .cons (ok_unary ..) <| .cons (ok_nullary ..) <| .cons (ok_binary ..) <| .cons (ok_unary ..) <| .cons (ok_unary ..) <| .cons (ok_binary ..) <| .nil

theorem outP3_main_v122' (W : Valuation τ sig (Elt F)) :
    after opsP3 W (no_index (Proc.devRef .tc main_v122)) = rowSoftmax2 (W (Proc.devRef .tc main_v111)) := by
  unfold opsP3; after_results; rfl

def ops0 : List (HloOp τ sig (Elt F)) := opsA ++ opsG1s ++ opsG1d ++ opsE1a ++ opsE1b ++ opsS1 ++ opsN1 ++ opsG2sa

theorem part0_eq (c : Dev nD) : main_part0 (F := F) c = seq ops0 := by
  simp only [main_part0, fn_leaky_relu.body, fn_where.body, fn_relu.body, ops0, opsA, opsG1s, gatherOps, opsG1d, opsE1a, edgeLinOps, opsE1b, opsS1, aggOps, opsN1, nodeOps, opsG2sa, opsG2s, List.take, seq_append, seq, bind_assoc, pure_bind] <;> rfl

def ops1 : List (HloOp τ sig (Elt F)) := opsG2sb ++ opsG2d ++ opsE2a ++ opsE2b ++ opsS2 ++ opsN2 ++ opsP1a

theorem part1_eq (c : Dev nD) : main_part1 (F := F) c = seq ops1 := by
  simp only [main_part1, fn_leaky_relu.body, fn_where.body, fn_relu.body, ops1, opsG2sb, opsG2s, List.drop, opsG2d, gatherOps, opsE2a, edgeLinOps, opsE2b, opsS2, aggOps, opsN2, nodeOps, opsP1a, seq_append, seq, bind_assoc, pure_bind] <;> rfl

def ops2 : List (HloOp τ sig (Elt F)) := opsP1b ++ opsP2 ++ opsP3

theorem part2_eq (c : Dev nD) : main_part2 (F := F) c = seq ops2 := by
  simp only [main_part2, fn_relu_0.body, fn_relu_1.body, ops2, opsP1b, opsP2, opsP3, seq_append, seq, bind_assoc, pure_bind] <;> rfl

def ops : List (HloOp τ sig (Elt F)) := ops0 ++ (ops1 ++ ops2)

theorem main_eq (c : Dev nD) : main (F := F) c = seq ops := by
  rw [ops, seq_append, seq_append, ← part0_eq c, ← part1_eq c, ← part2_eq c]; rfl

theorem ops_ok : List.Forall₂ Ok (ops (F := F)) (wA ++ wG1s ++ wG1d ++ wE1a ++ wE1b ++ wS1 ++ wN1 ++ wG2sa ++ (wG2sb ++ wG2d ++ wE2a ++ wE2b ++ wS2 ++ wN2 ++ wP1a ++ (wP1b ++ wP2 ++ wP3))) :=
  List.rel_append (List.rel_append (List.rel_append (List.rel_append (List.rel_append (List.rel_append (List.rel_append (List.rel_append opsA_ok opsG1s_ok) opsG1d_ok) opsE1a_ok) opsE1b_ok) opsS1_ok) opsN1_ok) opsG2sa_ok) (List.rel_append (List.rel_append (List.rel_append (List.rel_append (List.rel_append (List.rel_append (List.rel_append opsG2sb_ok opsG2d_ok) opsE2a_ok) opsE2b_ok) opsS2_ok) opsN2_ok) opsP1a_ok) (List.rel_append (List.rel_append opsP1b_ok opsP2_ok) opsP3_ok))

theorem scopedRefs_eq : (Finset.univ.filter fun b : Ref sig .tc => b.isScoped) = ∅ := by decide
theorem scopedSems_eq : (Finset.univ.filter fun sm : SemLoc sig => sm.isScoped .tc) = ∅ := by decide

theorem out_eq (V : Valuation τ sig (Elt F)) :
    after ops V (Proc.devRef .tc main_v122) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  simp (disch := decide) only [ops, ops0, ops1, ops2, after_append', refOut, edgeR_eq, poolR_eq, outA_main_v1', outA_main_v3', keep_of opsA_ok, outG1s_main_v10', keep_of opsG1s_ok, outG1d_main_v17', keep_of opsG1d_ok, outE1a_main_v24', keep_of opsE1a_ok, outE1b_main_v35', keep_of opsE1b_ok, outS1_main_v38', keep_of opsS1_ok, outN1_main_v45', keep_of opsN1_ok, keep_of opsG2sa_ok, outG2sb_main_v52', keep_of opsG2sb_ok, outG2d_main_v59', keep_of opsG2d_ok, outE2a_main_v66', keep_of opsE2a_ok, outE2b_main_v77', keep_of opsE2b_ok, outS2_main_v80', keep_of opsS2_ok, outN2_main_v87', keep_of opsN2_ok, keep_of opsP1a_ok, outP1b_main_v99', keep_of opsP1b_ok, outP2_main_v111', keep_of opsP2_ok, outP3_main_v122', keep_of opsP3_ok]

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v122) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => by
      refine ⟨(h c _).trans (out_eq _), ?_⟩
      and_intros <;> exact (h c _).trans (keep_of ops_ok _ (by decide)))
    (run_seq scopedRefs_eq scopedSems_eq defs main (fun _ => ops) main_eq (fun _ => (ok_all ops_ok).1) m ρ (fun _ => (ok_all ops_ok).2.1))

end Cert.ReferenceIdeal.Hand

end
-- ==== Proof.Math.PreRange.lean ====
import proofs.«409757_j13056700579878_4_alg».proof.Pre_finite_inputs
import proofs.«409757_j13056700579878_4_alg».proof.Proof.KI.HostSpec
import Idealize.ShloMosaic.Lib.ReduceAll
import Idealize.ShloMosaic.Lib.ValueIdx
import Idealize.ShloMosaic.Lib.ValueLayout

noncomputable section

namespace Cert.Bridge

open Idealize.ShloMosaic Idealize.ShloMosaic.ValueIdx

section PreRange

open Cert.Pre_finite_inputs

variable [Cert.Pre_finite_inputs.Facts]

private theorem scalar_idx_subsingleton : Subsingleton Cert.Pre_finite_inputs.S_.Idx := ⟨fun a b => funext fun d => d.elim0⟩

attribute [local instance] scalar_idx_subsingleton

theorem range_of_part4 {F : FTy → Type} [FloatOps F] (a1 : IVec S2x800000 32) (u v : IVec S_ 1)
    (h : fn_part4 (F := F) a1 u v ix0 = 1#1) (i : S2x800000.Idx) :
    0 ≤ (a1 i).toInt ∧ (a1 i).toInt < 50000 := by
  dsimp only [fn_part4, andi] at h
  obtain ⟨h1, hlt⟩ := IntOp.andi_eq_one.1 h
  exact ⟨IntOp.cmpi_sge.1 (Host.reduce_andi_all _ _ _ _ _ (IntOp.andi_eq_one.1 h1).2 i),
    IntOp.cmpi_slt.1 (Host.reduce_andi_all _ _ _ _ _ hlt i)⟩

end PreRange

section Rows

variable [Cert.KernelIdeal.Facts₀]

variable [Cert.Pre_finite_inputs.Facts]

variable {F : FTy → Type} [FloatOps F]
    (a0 : FVec F Cert.Pre_finite_inputs.S50000x64 .f32) (a1 : IVec Cert.Pre_finite_inputs.S2x800000 32)
    (a2 : FVec F Cert.Pre_finite_inputs.S800000x8 .f32) (a3 : IVec Cert.Pre_finite_inputs.S50000 32)
    (a4 : FVec F Cert.Pre_finite_inputs.S4x136 .f32) (a5 : FVec F Cert.Pre_finite_inputs.S4 .f32)
    (a6 : FVec F Cert.Pre_finite_inputs.S64x68 .f32) (a7 : FVec F Cert.Pre_finite_inputs.S64 .f32)
    (a8 : FVec F Cert.Pre_finite_inputs.S4x136 .f32) (a9 : FVec F Cert.Pre_finite_inputs.S4 .f32)
    (a10 : FVec F Cert.Pre_finite_inputs.S64x68 .f32) (a11 : FVec F Cert.Pre_finite_inputs.S64 .f32)
    (a12 : FVec F Cert.Pre_finite_inputs.S16x64 .f32) (a13 : FVec F Cert.Pre_finite_inputs.S16 .f32)
    (a14 : FVec F Cert.Pre_finite_inputs.S2x16 .f32) (a15 : FVec F Cert.Pre_finite_inputs.S2 .f32)
    (hpre : Cert.Pre_finite_inputs.fn (F := F) a0 a1 a2 a3 a4 a5 a6 a7 a8 a9 a10 a11 a12 a13 a14 a15 = (fun _ => 1#1))
include hpre

-- The source row at edge `e` is row 0 of the edge list at column `e`, which the precondition puts in range.
theorem src_range_of_pre : ∀ e : Fin 800000, 0 ≤ (Cert.KernelIdeal.Hand.srcK a1 (ix1 e)).toInt
      ∧ (Cert.KernelIdeal.Hand.srcK a1 (ix1 e)).toInt < 50000 := fun e => by
  unfold Cert.KernelIdeal.Hand.srcK
  rw [shapeCast_1a_a_apply, slice2_axis0_apply 0 a1 _ (0 : Fin 1) e (0 : Fin 2) rfl]
  exact range_of_part4 (F := F) a1 _ _ (congrFun hpre ix0) _

-- The target row is row 1.
theorem dst_range_of_pre : ∀ e : Fin 800000, 0 ≤ (Cert.KernelIdeal.Hand.dstK a1 (ix1 e)).toInt
      ∧ (Cert.KernelIdeal.Hand.dstK a1 (ix1 e)).toInt < 50000 := fun e => by
  unfold Cert.KernelIdeal.Hand.dstK
  rw [shapeCast_1a_a_apply, slice2_axis0_apply 1 a1 _ (0 : Fin 1) e (1 : Fin 2) rfl]
  exact range_of_part4 (F := F) a1 _ _ (congrFun hpre ix0) _

end Rows

end Cert.Bridge

end
-- ==== Proof.Math.Take.lean ====
import proofs.«409757_j13056700579878_4_alg».proof.Proof.KI.HostSpec
import proofs.«409757_j13056700579878_4_alg».proof.Proof.Ref.Spec
import Idealize.ShloMosaic.Lib.Affine
import Idealize.ShloMosaic.Lib.ValueIdx
import Idealize.ShloMosaic.Lib.ValueLayout
import Idealize.ShloMosaic.PureOps.Reduce

noncomputable section

namespace Cert.Bridge

open Idealize.ShloMosaic Idealize.ShloMosaic.ValueIdx
open Cert.KernelIdeal.Hand Cert.ReferenceIdeal.Hand

variable [Cert.KernelIdeal.Facts₀] [Cert.ReferenceIdeal.Facts]

theorem src_eq (ei : IVec Cert.KernelIdeal.S2x800000 32) : srcK ei = srcOf ei := rfl

theorem dst_eq (ei : IVec Cert.KernelIdeal.S2x800000 32) : dstK ei = dstOf ei := rfl

theorem agg_eq {F : FTy → Type} [FloatOps F] (i : IVec Cert.KernelIdeal.S800000 32)
    (msg : FVec F Cert.KernelIdeal.S800000x4 .f32) : aggK i msg = aggR i msg := rfl

namespace TakeAux

-- An and-reduction from the initial value 1 of an array of ones is 1.
theorem reduce_andi_one {s t u : Shape} {axes : List (Fin s.rank)} (x : s.Idx → BitVec 1) (init : u.Idx → BitVec 1)
    (h : s.ReducesTo axes t) (hu : 0 < u.numel) (hx : ∀ k, x k = 1#1) (hinit : init (Shape.Idx.first hu) = 1#1)
    (j : t.Idx) : Host.reduce IntOp.andi x init h hu j = 1#1 := by
  rw [Host.reduce_eq_foldl, hinit]
  exact List.foldl_fixed' (fun k => by rw [hx k]; rfl) _

-- A vector broadcast along axis 0 of an `[n, m]` array reads, at an index, the vector at the index's row.
theorem broadcastInDim_axis0_apply {α : Type} {n m : Nat} (hn : n ≠ 1)
    (hb : (⟨1, ![n]⟩ : Shape).BroadcastsInDim ⟨2, ![n, m]⟩ ![0]) (v : (⟨1, ![n]⟩ : Shape).Idx → α)
    (j : (⟨2, ![n, m]⟩ : Shape).Idx) : broadcastInDim ⟨2, ![n, m]⟩ ![0] hb v j = v (ix1 (j 0)) :=
  broadcastInDim_apply _ _ _ j (ix1 (j 0)) fun a => match a with
    | ⟨0, _⟩ => show (j 0).val = if n = 1 then 0 else (j 0).val by rw [if_neg hn]

variable (i : IVec Cert.KernelIdeal.S800000 32)

-- An index that is not negative is not moved: the start-index column at row `k` is the index of edge `k`.
theorem takeIdxK_apply (k : Cert.KernelIdeal.S800000x1.Idx) (h0 : 0 ≤ (i (ix1 (k 0))).toInt) :
    takeIdxK i k = i (ix1 (k 0)) := by
  unfold takeIdxK takeWrapK
  rw [broadcastInDim_axis0_apply (by decide), select_apply]
  have hc : cmpi .slt i (broadcastInDim Cert.KernelIdeal.S800000 ![] Cert.KernelIdeal.Facts₀.bcast_S_S800000
      (constantI Cert.KernelIdeal.S_ 32 0#32)) (ix1 (k 0)) = 0#1 :=
    eq_zero_of_ne_one (show ¬ IntOp.cmpi .slt (i (ix1 (k 0))) 0#32 = 1#1 from mt IntOp.cmpi_slt.1 (not_lt.2 h0))
  rw [hc, select_zero]

-- Under the range both bound tests hold of every start index, so the mask is all ones.
theorem takeMaskK_eq_one (hi : ∀ e : Fin 800000, 0 ≤ (i (ix1 e)).toInt ∧ (i (ix1 e)).toInt < 50000)
    (j : Cert.KernelIdeal.S800000.Idx) : takeMaskK i j = 1#1 := by
  unfold takeMaskK
  refine reduce_andi_one _ _ _ _ (fun k => ?_) rfl j
  obtain ⟨h0, h1⟩ := hi (k 0)
  show IntOp.andi (IntOp.cmpi .sge (takeIdxK i k) 0#32) (IntOp.cmpi .sle (takeIdxK i k) 49999#32) = 1#1
  rw [takeIdxK_apply i k h0]
  exact IntOp.andi_eq_one.2 ⟨IntOp.cmpi_sge.2 h0, IntOp.cmpi_sle.2 (Int.le_of_lt_add_one h1)⟩

end TakeAux

open TakeAux in
-- Under the index range the mask keeps every gathered row, and the moved index column is the reference's.
theorem take_eq {F : FTy → Type} [FloatOps F] (h : FVec F Cert.KernelIdeal.S50000x64 .f32)
    (i : IVec Cert.KernelIdeal.S800000 32)
    (hi : ∀ e : Fin 800000, 0 ≤ (i (ix1 e)).toInt ∧ (i (ix1 e)).toInt < 50000) :
    takeK h i = gatherRows h i := by
  funext j
  unfold takeK
  rw [select_apply, broadcastInDim_axis0_apply (by decide), takeMaskK_eq_one i hi, select_one]
  rfl

end Cert.Bridge

end
-- ==== Proof.Math.Rows.lean ====
import Idealize.ShloMosaic.Lib.KernelVsHost
import Idealize.ShloMosaic.Lib.ValueLayout
import Idealize.ShloMosaic.Lib.IdealHost
import Idealize.ShloMosaic.Lib.StackMember

noncomputable section

namespace Cert.Bridge

open Idealize.ShloMosaic Idealize.ShloMosaic.ValueIdx
open scoped BigOperators

def leaky (x : Ideal .f32) : Ideal .f32 :=
  Scalar.select (FloatOps.cmpf .oge x (Scalar.ofBits .f32 0x00000000#32)) x
    (FloatOps.mulf (Scalar.ofBits .f32 0x3C23D70A#32) x)

def rowMax {m : Nat} (v : Fin m → Ideal .f32) : Ideal .f32 :=
  (Finset.univ : Finset (Fin m)).fold max (Ideal.ofBits .f32 0xFF800000#32) v

def soft {m : Nat} (v : Fin m → Ideal .f32) (q : Fin m) : Ideal .f32 :=
  Ideal.div (Ideal.exp (v q - rowMax v)) (∑ k : Fin m, Ideal.exp (v k - rowMax v))

theorem leakyK_apply {s : Shape} (x : FVec Ideal s .f32) (i : s.Idx) :
    select (cmpf .oge x (broadcast s (Scalar.ofBits .f32 0x00000000#32))) x
        (mulf (broadcast s (Scalar.ofBits .f32 0x3C23D70A#32)) x) i = leaky (x i) := rfl

theorem leakyH_apply {s : Shape} (x : FVec Ideal s .f32) (h : (⟨0, ![]⟩ : Shape).BroadcastsInDim s ![]) (i : s.Idx) :
    select (cmpf .oge x (broadcastInDim s ![] h (constant ⟨0, ![]⟩ .f32 0x00000000#32))) x
        (mulf (broadcastInDim s ![] h (constant ⟨0, ![]⟩ .f32 0x3C23D70A#32)) x) i = leaky (x i) := rfl

theorem sum_fin_split {M : Type} [AddCommMonoid M] (a b : Nat) (f : Fin (a + b) → M) :
    ∑ i, f i = ∑ i : Fin a, f ⟨i.val, by omega⟩ + ∑ i : Fin b, f ⟨a + i.val, by omega⟩ :=
  Fin.sum_univ_add f

-- On an axis of one point the only coordinate is 0.
theorem val_eq_ite {n : Nat} (p : Fin n) : p.val = if n = 1 then 0 else p.val := by
  split <;> omega

-- Over a reduction of the last axis, row `p` with coordinate `k` put back is `(p, k)`.
theorem lift_row {n m : Nat} (h : (⟨2, ![n, m]⟩ : Shape).Reduces [1] ⟨1, ![n]⟩) (p : Fin n) :
    h.lift (ix1 p) = ix2 p :=
  funext fun _ => funext fun | ⟨0, _⟩ => rfl | ⟨1, _⟩ => rfl

section Layout
variable {α : Type}

theorem colK_apply {n m : Nat} (y : (⟨1, ![n]⟩ : Shape).Idx → α) (hc : (⟨1, ![n]⟩ : Shape).ShapeCasts ⟨2, ![n, 1]⟩)
    (hb : (⟨2, ![n, 1]⟩ : Shape).Broadcasts ⟨2, ![n, m]⟩) (p : Fin n) (q : Fin m) :
    broadcastTo ⟨2, ![n, m]⟩ (shapeCast ⟨2, ![n, 1]⟩ y hc) hb (ix2 p q) = y (ix1 p) :=
  (broadcastTo_apply _ hb (ix2 p q) (ix2 p (0 : Fin 1)) fun | ⟨0, _⟩ => val_eq_ite p | ⟨1, _⟩ => rfl).trans
    (shapeCast_apply y hc _ (ix1 p) (by
      rw [Shape.rowMajor_val_two, Shape.rowMajor_val_one]; exact (Nat.mul_one _).symm))

theorem colH_apply {n m : Nat} (y : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, m]⟩ ![0, 1]) (p : Fin n) (q : Fin m) :
    broadcastInDim ⟨2, ![n, m]⟩ ![0, 1] h2 (broadcastInDim ⟨2, ![n, 1]⟩ ![0] h1 y) (ix2 p q) = y (ix1 p) :=
  (broadcastInDim_apply _ h2 _ (ix2 p q) (ix2 p (0 : Fin 1)) fun | ⟨0, _⟩ => val_eq_ite p | ⟨1, _⟩ => rfl).trans
    (broadcastInDim_apply _ h1 y (ix2 p (0 : Fin 1)) (ix1 p) fun | ⟨0, _⟩ => val_eq_ite p)

theorem rowK_apply {n m : Nat} (y : (⟨1, ![m]⟩ : Shape).Idx → α) (hc : (⟨1, ![m]⟩ : Shape).ShapeCasts ⟨2, ![1, m]⟩)
    (hb : (⟨2, ![1, m]⟩ : Shape).Broadcasts ⟨2, ![n, m]⟩) (p : Fin n) (q : Fin m) :
    broadcastTo ⟨2, ![n, m]⟩ (shapeCast ⟨2, ![1, m]⟩ y hc) hb (ix2 p q) = y (ix1 q) :=
  (broadcastTo_1b_ab_apply _ hb p q).trans (shapeCast_a_1a_apply y hc 0 q)

theorem rowH_apply {n m : Nat} (y : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 y) (ix2 p q) = y (ix1 q) :=
  (broadcastInDim_oneRow_apply h2 _ p q).trans
    (broadcastInDim_apply _ h1 y (ix2 (0 : Fin 1) q) (ix1 q) fun | ⟨0, _⟩ => val_eq_ite q)

theorem sliceCols_apply {a K k : Nat} (off : Nat) (w : (⟨2, ![a, K]⟩ : Shape).Idx → α)
    (h : (⟨2, ![a, K]⟩ : Shape).Slices ![0, off] ⟨2, ![a, k]⟩) (c : Fin a) (j : Fin k) (hj : off + j.val < K) :
    extractStridedSlice ⟨2, ![a, k]⟩ ![0, off] w h (ix2 c j) = w (ix2 c ⟨off + j.val, hj⟩) :=
  slice2_axis1_apply off w h c j _ rfl

end Layout

section Linear

theorem linH_apply {m k n : Nat} (D : DotDims ⟨2, ![m, k]⟩ ⟨2, ![k, n]⟩ ⟨2, ![m, n]⟩) (hD : D = DotDims.plain m k n)
    (x : FVec Ideal ⟨2, ![m, k]⟩ .f32) (W : FVec Ideal ⟨2, ![n, k]⟩ .f32)
    (ht : (⟨2, ![n, k]⟩ : Shape).Transposes [1, 0] ⟨2, ![k, n]⟩) (p : Fin m) (c : Fin n) :
    Host.dotGeneral D none x (transpose ⟨2, ![k, n]⟩ [1, 0] W ht) (ix2 p c)
      = ∑ j : Fin k, x (ix2 p j) * W (ix2 c j) := by
  subst hD
  rw [StackMember.dotGeneral_plain_apply]
  exact Finset.sum_congr rfl fun j _ => by rw [transpose_ix2_apply]

-- A product accumulated into a zero array is the plain contraction.
theorem linK_apply {m k n : Nat} (D : DotDims ⟨2, ![m, k]⟩ ⟨2, ![k, n]⟩ ⟨2, ![m, n]⟩) (hD : D = DotDims.plain m k n)
    (x : FVec Ideal ⟨2, ![m, k]⟩ .f32) (W : FVec Ideal ⟨2, ![n, k]⟩ .f32)
    (ht : (⟨2, ![n, k]⟩ : Shape).Transposes [1, 0] ⟨2, ![k, n]⟩) (p : Fin m) (c : Fin n) :
    matmul D none x (transpose ⟨2, ![k, n]⟩ [1, 0] W ht) (constant ⟨2, ![m, n]⟩ .f32 0x00000000#32) (ix2 p c)
      = ∑ j : Fin k, x (ix2 p j) * W (ix2 c j) := by
  rw [matmul_zero_eq_dotGeneral, linH_apply D hD]

end Linear

section Softmax

-- Exponentials of a row less its maximum `M`, over their sum `S`, are the row's softmax.
theorem soft_of {n m : Nat} (x M S : FVec Ideal ⟨2, ![n, m]⟩ .f32) (p : Fin n) (q : Fin m)
    (hM : ∀ c, M (ix2 p c) = rowMax fun c => x (ix2 p c))
    (hS : S (ix2 p q) = ∑ c, Ideal.exp (x (ix2 p c) - M (ix2 p c))) :
    Ideal.div (Ideal.exp (x (ix2 p q) - M (ix2 p q))) (S (ix2 p q)) = soft (fun c => x (ix2 p c)) q := by
  rw [hS]; simp only [hM]; rfl

theorem softK_apply {n m : Nat} (x : FVec Ideal ⟨2, ![n, m]⟩ .f32)
    (hr : (⟨2, ![n, m]⟩ : Shape).Reduces [1] ⟨1, ![n]⟩) (hc : (⟨1, ![n]⟩ : Shape).ShapeCasts ⟨2, ![n, 1]⟩)
    (hb : (⟨2, ![n, 1]⟩ : Shape).Broadcasts ⟨2, ![n, m]⟩)
    (hφ : FKind.Formats .f32) (hM : (0xFF800000#32 : BitVec 32) = FKind.maximumf.neutral .f32 hφ)
    (hA : (0x00000000#32 : BitVec 32) = FKind.add.neutral .f32 hφ) (p : Fin n) (q : Fin m) :
    divf (exp (subf x (broadcastTo ⟨2, ![n, m]⟩ (shapeCast ⟨2, ![n, 1]⟩ (multiReduction .maximumf [1] ⟨1, ![n]⟩ x 0xFF800000#32 hr hφ hM) hc) hb)))
      (broadcastTo ⟨2, ![n, m]⟩ (shapeCast ⟨2, ![n, 1]⟩ (multiReduction .add [1] ⟨1, ![n]⟩
        (exp (subf x (broadcastTo ⟨2, ![n, m]⟩ (shapeCast ⟨2, ![n, 1]⟩ (multiReduction .maximumf [1] ⟨1, ![n]⟩ x 0xFF800000#32 hr hφ hM) hc) hb)))
        0x00000000#32 hr hφ hA) hc) hb) (ix2 p q)
      = soft (fun c => x (ix2 p c)) q := by
  refine soft_of x _ _ p q (fun c => ?_) ?_
  · rw [colK_apply, Ideal.multiReduction_maximumf_single, lift_row]; rfl
  · rw [colK_apply, Ideal.multiReduction_add_single, lift_row]; rfl

theorem softH_apply {n m : Nat} (x : FVec Ideal ⟨2, ![n, m]⟩ .f32)
    (hr' : (⟨2, ![n, m]⟩ : Shape).ReducesTo [1] ⟨1, ![n]⟩) (hS : 0 < (⟨0, ![]⟩ : Shape).numel)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, m]⟩ ![0, 1]) (p : Fin n) (q : Fin m) :
    Host.divf (Host.exp (subf x (broadcastInDim ⟨2, ![n, m]⟩ ![0, 1] h2 (broadcastInDim ⟨2, ![n, 1]⟩ ![0] h1
        (maximumf (broadcastInDim ⟨1, ![n]⟩ ![] h0 (constant ⟨0, ![]⟩ .f32 0xFF800000#32))
          (Host.reduce FloatOps.maximumf x (constant ⟨0, ![]⟩ .f32 0xFF800000#32 : FVec Ideal ⟨0, ![]⟩ .f32) hr' hS))))))
      (broadcastInDim ⟨2, ![n, m]⟩ ![0, 1] h2 (broadcastInDim ⟨2, ![n, 1]⟩ ![0] h1
        (Host.reduceAdd (Host.exp (subf x (broadcastInDim ⟨2, ![n, m]⟩ ![0, 1] h2 (broadcastInDim ⟨2, ![n, 1]⟩ ![0] h1
          (maximumf (broadcastInDim ⟨1, ![n]⟩ ![] h0 (constant ⟨0, ![]⟩ .f32 0xFF800000#32))
            (Host.reduce FloatOps.maximumf x (constant ⟨0, ![]⟩ .f32 0xFF800000#32 : FVec Ideal ⟨0, ![]⟩ .f32) hr' hS))))))
          (constant ⟨0, ![]⟩ .f32 0x00000000#32 : FVec Ideal ⟨0, ![]⟩ .f32) hr' hS))) (ix2 p q)
      = soft (fun c => x (ix2 p c)) q := by
  have hr : (⟨2, ![n, m]⟩ : Shape).Reduces [1] ⟨1, ![n]⟩ := ⟨hr'.1, Nat.one_pos, hr'.2⟩
  refine soft_of x _ _ p q (fun c => ?_) ?_
  · rw [colH_apply, maximumf_apply, Host.reduce_eq_fold_single FloatOps.maximumf x _ hr' hr hS, lift_row]
    exact max_eq_right ((Finset.le_fold_max _).2 (.inl le_rfl))
  · rw [colH_apply, hostReduceAdd_apply, Ideal.hostReduceAdd_single hr' hr, lift_row]
    exact (congrArg (· + _) Ideal.ofBits_zero_f32).trans (zero_add _)

end Softmax

section Concat
variable {α : Type}

-- A column of blocks laid side by side reads block `k`, whose first column stands at `pre`.
theorem concat_col {n K w : Nat} {xs : List ((s : Shape) × (s.Idx → α))}
    {h : Shape.Concatenates (xs.map (·.1)) ⟨2, ![n, K]⟩ 1} {x : (⟨2, ![n, w]⟩ : Shape).Idx → α} {r : Fin n} {j : Fin w}
    {c : Fin K} (k : Nat) (hk : k < xs.length) (hx : xs[k] = ⟨_, x⟩) (pre : Nat)
    (hpre : (((xs.take k).map (·.1)).map fun s : Shape => if h : s.rank = 2 then s.size ((1 : Fin 2).cast h.symm) else 0).sum = pre)
    (hc : pre + j.val = c.val) : concatenate ⟨2, ![n, K]⟩ 1 xs h (ix2 r c) = x (ix2 r j) :=
  concatenate_apply_piece 1 xs h _ k hk _ x hx rfl pre hpre _ (fun | ⟨0, _⟩, _ => rfl | ⟨1, _⟩, hb => absurd rfl hb) hc

theorem concat3_fst {n a b c K : Nat} (x₁ : (⟨2, ![n, a]⟩ : Shape).Idx → α) (x₂ : (⟨2, ![n, b]⟩ : Shape).Idx → α)
    (x₃ : (⟨2, ![n, c]⟩ : Shape).Idx → α)
    (h : Shape.Concatenates [⟨2, ![n, a]⟩, ⟨2, ![n, b]⟩, ⟨2, ![n, c]⟩] ⟨2, ![n, K]⟩ 1) (r : Fin n) (j : Fin a) (hj : j.val < K) :
    concatenate ⟨2, ![n, K]⟩ 1 [⟨⟨2, ![n, a]⟩, x₁⟩, ⟨⟨2, ![n, b]⟩, x₂⟩, ⟨⟨2, ![n, c]⟩, x₃⟩] h (ix2 r ⟨j.val, hj⟩) = x₁ (ix2 r j) :=
  concat_col 0 (by simp) rfl 0 rfl (Nat.zero_add _)

theorem concat3_snd {n a b c K : Nat} (x₁ : (⟨2, ![n, a]⟩ : Shape).Idx → α) (x₂ : (⟨2, ![n, b]⟩ : Shape).Idx → α)
    (x₃ : (⟨2, ![n, c]⟩ : Shape).Idx → α)
    (h : Shape.Concatenates [⟨2, ![n, a]⟩, ⟨2, ![n, b]⟩, ⟨2, ![n, c]⟩] ⟨2, ![n, K]⟩ 1) (r : Fin n) (j : Fin b) (hj : a + j.val < K) :
    concatenate ⟨2, ![n, K]⟩ 1 [⟨⟨2, ![n, a]⟩, x₁⟩, ⟨⟨2, ![n, b]⟩, x₂⟩, ⟨⟨2, ![n, c]⟩, x₃⟩] h (ix2 r ⟨a + j.val, hj⟩) = x₂ (ix2 r j) :=
  concat_col 1 (by simp) rfl a (by simp) rfl

theorem concat3_trd {n a b c K : Nat} (x₁ : (⟨2, ![n, a]⟩ : Shape).Idx → α) (x₂ : (⟨2, ![n, b]⟩ : Shape).Idx → α)
    (x₃ : (⟨2, ![n, c]⟩ : Shape).Idx → α)
    (h : Shape.Concatenates [⟨2, ![n, a]⟩, ⟨2, ![n, b]⟩, ⟨2, ![n, c]⟩] ⟨2, ![n, K]⟩ 1) (r : Fin n) (j : Fin c) (hj : a + b + j.val < K) :
    concatenate ⟨2, ![n, K]⟩ 1 [⟨⟨2, ![n, a]⟩, x₁⟩, ⟨⟨2, ![n, b]⟩, x₂⟩, ⟨⟨2, ![n, c]⟩, x₃⟩] h (ix2 r ⟨a + b + j.val, hj⟩) = x₃ (ix2 r j) :=
  concat_col 2 (by simp) rfl (a + b) (by simp) rfl

theorem concat2_fst {n a b K : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, K]⟩ 1) (r : Fin n) (j : Fin a) (hj : j.val < K) :
    concatenate ⟨2, ![n, K]⟩ 1 [⟨⟨2, ![n, a]⟩, x₁⟩, ⟨⟨2, ![n, b]⟩, x₂⟩] h (ix2 r ⟨j.val, hj⟩) = x₁ (ix2 r j) :=
  concat_col 0 (by simp) rfl 0 rfl (Nat.zero_add _)

theorem concat2_snd {n a b K : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, K]⟩ 1) (r : Fin n) (j : Fin b) (hj : a + j.val < K) :
    concatenate ⟨2, ![n, K]⟩ 1 [⟨⟨2, ![n, a]⟩, x₁⟩, ⟨⟨2, ![n, b]⟩, x₂⟩] h (ix2 r ⟨a + j.val, hj⟩) = x₂ (ix2 r j) :=
  concat_col 1 (by simp) rfl a (by simp) rfl

end Concat

end Cert.Bridge

end
-- ==== Proof.Math.Edge.lean ====
import proofs.«409757_j13056700579878_4_alg».proof.Proof.KI.Spec
import proofs.«409757_j13056700579878_4_alg».proof.Proof.KI.HostSpec
import proofs.«409757_j13056700579878_4_alg».proof.Proof.Ref.Spec
import proofs.«409757_j13056700579878_4_alg».proof.Proof.Math.Rows

noncomputable section

namespace Cert.Bridge

open Idealize.ShloMosaic Idealize.ShloMosaic.ValueIdx Cert.KernelIdeal Cert.KernelIdeal.Gen Cert.KernelIdeal.Hand
open scoped BigOperators

-- Row `r` of an array is row `r mod B` of its tile `r / B`.
theorem rowsAt_tile {α : Type} {B n k : Nat} {hn : 0 < n} (x : (⟨2, ![n, k]⟩ : Shape).Idx → α) (r : Fin n)
    {h : r.val % B < B} (c : Fin k) : rowsAt B n k hn x (r.val / B) (ix2 ⟨r.val % B, h⟩ c) = x (ix2 r c) := by
  refine congrArg x (Shape.idx_ext₂ ?_ rfl)
  show (B * (r.val / B) + r.val % B) % n = r.val
  rw [Nat.div_add_mod, Nat.mod_eq_of_lt r.isLt]

-- Both sides are the softmax of the leaky relu of one contraction over the 136 columns, cut at 64 and 128, plus the bias.
theorem edge_eq [Cert.KernelIdeal.Facts] [Cert.ReferenceIdeal.Facts] (sf df : FVec Ideal S800000x64 .f32)
    (ea : FVec Ideal S800000x8 .f32) (w : FVec Ideal S4x136 .f32) (b : FVec Ideal S4 .f32) :
    Cert.KernelIdeal.Hand.edgeWhole (F := Ideal) sf df ea (wsK w) (wdK w) (weK w) b
      = Cert.ReferenceIdeal.Hand.edgeR (F := Ideal) sf df ea w b := by
  funext j
  obtain ⟨r, q, rfl⟩ : ∃ (r : Fin 800000) (q : Fin 4), j = ix2 r q := ⟨j 0, j 1, eq_ix2 j⟩
  unfold Cert.ReferenceIdeal.Hand.edgeR
  refine (softK_apply _ _ _ _ _ _ _ ⟨r.val % 6400, Nat.mod_lt _ (by decide)⟩ q).trans
    (Eq.trans ?_ (softH_apply _ _ _ _ _ _ r q).symm)
  congr 1
  funext c
  refine (leakyK_apply _ _).trans (Eq.trans (congrArg leaky ?_) (leakyH_apply _ _ _).symm)
  rw [addf_apply, addf_apply, addf_apply, addf_apply, rowK_apply, rowH_apply,
    linK_apply dot_S6400x64_S64x4_S6400x4_1_0_0_1_n_n rfl, linK_apply dot_S6400x64_S64x4_S6400x4_1_0_0_1_n_n rfl,
    linK_apply dot_S6400x8_S8x4_S6400x4_1_0_0_1_n_n rfl,
    linH_apply Cert.ReferenceIdeal.dot_S800000x136_S136x4_S800000x4_1_0_0_1_n_n rfl, sum_fin_split 128 8,
    sum_fin_split 64 64]
  simp only [shapeCast_self, rowsAt_tile, concat3_fst, concat3_snd, concat3_trd,
    wsK, wdK, weK, slice2_axis1_eq, Nat.zero_add]

end Cert.Bridge

end
-- ==== Proof.Math.Node.lean ====
import proofs.«409757_j13056700579878_4_alg».proof.Proof.KI.Spec
import proofs.«409757_j13056700579878_4_alg».proof.Proof.KI.HostSpec
import proofs.«409757_j13056700579878_4_alg».proof.Proof.Ref.Spec
import proofs.«409757_j13056700579878_4_alg».proof.Proof.Math.Rows

noncomputable section

namespace Cert.Bridge

open Idealize.ShloMosaic Idealize.ShloMosaic.ValueIdx Cert.KernelIdeal Cert.KernelIdeal.Gen Cert.KernelIdeal.Hand
open scoped BigOperators

-- Row `r` of an array is row `r mod B` of its tile `r / B`.
theorem rowsAt_tile' {α : Type} {B n k : Nat} {hn : 0 < n} (x : (⟨2, ![n, k]⟩ : Shape).Idx → α) (r : Fin n)
    {h : r.val % B < B} (c : Fin k) : rowsAt B n k hn x (r.val / B) (ix2 ⟨r.val % B, h⟩ c) = x (ix2 r c) := by
  refine congrArg x (Shape.idx_ext₂ ?_ rfl)
  show (B * (r.val / B) + r.val % B) % n = r.val
  rw [Nat.div_add_mod, Nat.mod_eq_of_lt r.isLt]

-- Both sides are the maximum with zero of one contraction over the 68 columns, cut at 64, plus the bias.
theorem node_eq [Cert.KernelIdeal.Facts] [Cert.ReferenceIdeal.Facts] (h : FVec Ideal S50000x64 .f32)
    (agg : FVec Ideal S50000x4 .f32) (w : FVec Ideal S64x68 .f32) (b : FVec Ideal S64 .f32) :
    Cert.KernelIdeal.Hand.nodeWhole (F := Ideal) h agg (whK w) (waK w) b
      = Cert.ReferenceIdeal.Hand.nodeR (F := Ideal) h agg w b := by
  funext j
  obtain ⟨r, q, rfl⟩ : ∃ (r : Fin 50000) (q : Fin 64), j = ix2 r q := ⟨j 0, j 1, eq_ix2 j⟩
  unfold Cert.ReferenceIdeal.Hand.nodeR
  refine (maximumf_apply _ _ _).trans (Eq.trans (congrArg₂ max ?_ ?_) (maximumf_apply _ _ _).symm)
  · rw [addf_apply, addf_apply, addf_apply, rowK_apply, rowH_apply,
      linK_apply dot_S2000x64_S64x64_S2000x64_1_0_0_1_n_n rfl, linK_apply dot_S2000x4_S4x64_S2000x64_1_0_0_1_n_n rfl,
      linH_apply Cert.ReferenceIdeal.dot_S50000x68_S68x64_S50000x64_1_0_0_1_n_n rfl, sum_fin_split 64 4]
    simp only [shapeCast_self, rowsAt_tile', concat2_fst, concat2_snd, whK, waK,
      slice2_axis1_eq, Nat.zero_add]
  · rfl

end Cert.Bridge

end
-- ==== Proof.Math.PoolSums.lean ====
import proofs.«409757_j13056700579878_4_alg».proof.Proof.KI.Spec
import proofs.«409757_j13056700579878_4_alg».proof.Proof.KI.HostSpec
import proofs.«409757_j13056700579878_4_alg».proof.Proof.Ref.Spec
import Idealize.ShloMosaic.PureOps.Ideal.Laws
import Idealize.ShloMosaic.Lib.ValueLayout
import Idealize.ShloMosaic.Lib.IdealHost
import Idealize.ShloMosaic.Lib.ValueIdxRank1

noncomputable section

namespace Cert.Bridge

open Idealize.ShloMosaic Idealize.ShloMosaic.ValueIdx
open Cert.KernelIdeal Cert.KernelIdeal.Gen Cert.KernelIdeal.Hand

-- A 32-bit word is the word of `g < 512` exactly when its signed reading is `g`.
theorem eq_ofNat_iff_toInt (w : BitVec 32) (g : Fin 512) : w = BitVec.ofNat 32 g.val ↔ w.toInt = (g.val : ℤ) := by
  have hg : (BitVec.ofNat 32 g.val).toInt = (g.val : ℤ) := by
    have := g.isLt
    have e : g.val % 2 ^ 32 = g.val := Nat.mod_eq_of_lt (by omega)
    rw [BitVec.toInt_eq_toNat_cond, BitVec.toNat_ofNat, e, if_pos (by omega)]
  exact ⟨fun h => h ▸ hg, fun h => BitVec.eq_of_toInt_eq (h.trans hg.symm)⟩

private theorem sitofp_cmpi_eq {s : Shape} (a b : IVec s 32) (i : s.Idx) :
    FloatOps.sitofp (F := Ideal) .f32 ((cmpi .eq a b i).setWidth 32) = if a i = b i then 1 else 0 := by
  show FloatOps.sitofp (F := Ideal) .f32 ((IntOp.cmpi .eq (a i) (b i)).setWidth 32) = _
  by_cases h : a i = b i
  · simp [IntOp.cmpi, FloatOps.sitofp, h]
  · simp [IntOp.cmpi, FloatOps.sitofp, h, beq_eq_false_iff_ne.mpr h]

-- The one-hot entry: 1 when row `r`'s graph id is `g`, else 0.
theorem k4_pay3_apply (v4 : IVec S2000x1 32) (r : Fin 2000) (g : Fin 512) :
    k4_pay3 (F := Ideal) v4 (ix2 r g) = if (v4 (ix2 r (0 : Fin 1))).toInt = (g.val : ℤ) then 1 else 0 := by
  simp only [k4_pay3, shapeCast_self]
  rw [sitofp_apply, extui_apply, sitofp_cmpi_eq, iota_single_apply, broadcastTo_apply v4 _ (ix2 r g) (ix2 r (0 : Fin 1)) (fun a => by
    match a with
    | ⟨0, _⟩ => rfl
    | ⟨1, _⟩ => rfl)]
  exact if_congr (eq_ofNat_iff_toInt _ g) rfl rfl

abbrev poolDot := dot_S2000x512_S2000x64_S512x64_0_0_1_1_n_n

theorem poolDot_lhs (g : Fin 512) (f : Fin 64) (r : Fin 2000) :
    poolDot.lhsIdx (ix2 g f) ((contrEquiv1 poolDot 2000 rfl rfl).symm r) = ix2 r g := Shape.idx_ext₂ rfl rfl

theorem poolDot_rhs (g : Fin 512) (f : Fin 64) (r : Fin 2000) :
    poolDot.rhsIdx (ix2 g f) ((contrEquiv1 poolDot 2000 rfl rfl).symm r) = ix2 r f := Shape.idx_ext₂ rfl rfl

-- One tile's step of the running sums: what was there plus the rows of the tile's nodes whose graph id is `g`.
theorem k4_pay4_apply (v4 : IVec S2000x1 32) (v10 : FVec Ideal S2000x64 .f32) (v16 : FVec Ideal S512x64 .f32)
    (g : Fin 512) (f : Fin 64) :
    k4_pay4 (F := Ideal) v4 v10 v16 (ix2 g f)
      = v16 (ix2 g f) + ∑ r : Fin 2000, if (v4 (ix2 r (0 : Fin 1))).toInt = (g.val : ℤ) then v10 (ix2 r f) else 0 := by
  simp only [k4_pay4, shapeCast_self, matmul]
  rw [addf_apply, Ideal.matmul_constant_zero_apply]
  refine congrArg (v16 (ix2 g f) + ·) ((Equiv.sum_comp (contrEquiv1 poolDot 2000 rfl rfl).symm _).symm.trans ?_)
  refine Finset.sum_congr rfl fun r _ => ?_
  rw [poolDot_lhs, poolDot_rhs, k4_pay3_apply, boole_mul]

-- One tile's step of the running counts: what was there plus the number of the tile's nodes whose graph id is `g`.
theorem k4_pay5_apply (v4 : IVec S2000x1 32) (v21 : FVec Ideal S512x1 .f32) (g : Fin 512) :
    k4_pay5 (F := Ideal) v4 v21 (ix2 g (0 : Fin 1))
      = v21 (ix2 g (0 : Fin 1)) + ∑ r : Fin 2000, if (v4 (ix2 r (0 : Fin 1))).toInt = (g.val : ℤ) then 1 else 0 := by
  simp only [k4_pay5, shapeCast_self]
  rw [addf_apply, transpose_ix2_apply, shapeCast_a_1a_apply]
  refine congrArg (v21 (ix2 g (0 : Fin 1)) + ·) ?_
  refine (Ideal.multiReduction_add_single (k4_pay3 (F := Ideal) v4) 0x00000000#32 reduces_S2000x512_S512 (.inl rfl) rfl (ix1 g)).trans ?_
  exact Finset.sum_congr rfl fun r _ => k4_pay3_apply v4 r g

-- An accumulator that starts from zero and adds tile `t`'s terms at step `t` holds, after the last tile, the sum of all terms.
private theorem sum_tiles {M : Type*} [AddCommMonoid M] (B T N : ℕ) (hN : 0 < N) (hT : B * (T + 1) = N) (v : Fin N → M)
    (a : ℕ → M) (h0 : a 0 = 0 + ∑ r : Fin B, v ⟨(B * 0 + r.val) % N, Nat.mod_lt _ hN⟩)
    (hs : ∀ t, a (t + 1) = a t + ∑ r : Fin B, v ⟨(B * (t + 1) + r.val) % N, Nat.mod_lt _ hN⟩) :
    a T = ∑ n, v n := by
  have key : ∀ t, a t = ∑ n ∈ Finset.range (B * (t + 1)), v ⟨n % N, Nat.mod_lt _ hN⟩ := fun t => by
    induction t with
    | zero =>
      rw [h0, ← Finset.sum_range fun x => v ⟨(B * 0 + x) % N, Nat.mod_lt _ hN⟩, Nat.mul_add_one, Finset.sum_range_add,
        Nat.mul_zero, Finset.range_zero, Finset.sum_empty]
    | succ t ih =>
      rw [hs, ih, ← Finset.sum_range fun x => v ⟨(B * (t + 1) + x) % N, Nat.mod_lt _ hN⟩, Nat.mul_add_one B (t + 1),
        Finset.sum_range_add]
  rw [key, hT, Finset.sum_range]
  exact Finset.sum_congr rfl fun n _ => congrArg v (Fin.ext (Nat.mod_eq_of_lt n.isLt))

theorem k4_pay1_apply (j : S512x64.Idx) : k4_pay1 (F := Ideal) j = 0 := by
  simp only [k4_pay1, shapeCast_self]
  exact Ideal.ofBits_zero_f32
theorem k4_pay2_apply (j : S512x1.Idx) : k4_pay2 (F := Ideal) j = 0 := by
  simp only [k4_pay2, shapeCast_self]
  exact Ideal.ofBits_zero_f32

theorem poolSums_last (h : FVec Ideal S50000x64 .f32) (b2 : IVec S50000x1 32) (g : Fin 512) (f : Fin 64) :
    poolSums (F := Ideal) h b2 24 (ix2 g f)
      = ∑ n : Fin 50000, if (b2 (ix2 n (0 : Fin 1))).toInt = (g.val : ℤ) then h (ix2 n f) else 0 :=
  sum_tiles 2000 24 50000 (by decide) rfl _ (fun t => poolSums (F := Ideal) h b2 t (ix2 g f))
    (by beta_reduce; rw [poolSums, k4_pay4_apply, k4_pay1_apply]; rfl) (fun t => by beta_reduce; rw [poolSums, k4_pay4_apply]; rfl)

theorem poolCnts_last (b2 : IVec S50000x1 32) (g : Fin 512) :
    poolCnts (F := Ideal) b2 24 (ix2 g (0 : Fin 1)) = ∑ n : Fin 50000, if (b2 (ix2 n (0 : Fin 1))).toInt = (g.val : ℤ) then 1 else 0 :=
  sum_tiles 2000 24 50000 (by decide) rfl _ (fun t => poolCnts (F := Ideal) b2 t (ix2 g (0 : Fin 1)))
    (by beta_reduce; rw [poolCnts, k4_pay5_apply, k4_pay2_apply]; rfl) (fun t => by beta_reduce; rw [poolCnts, k4_pay5_apply]; rfl)

-- The exact scatter-add at an entry: the operand there plus the updates whose start plus window coordinate is the entry's on every axis.
private theorem scatterAdd_apply {s si u : Shape} {w : ℕ} (d : ScatterDims s si u) (x : FVec Ideal s .f32) (idx : IVec si w)
    (upd : FVec Ideal u .f32) (i : s.Idx) :
    Host.scatterAdd (F := Ideal) d x idx upd i
      = x i + ∑ j, if ∀ a, d.start j idx a + (d.window j a : ℤ) = ((i a).val : ℤ) then upd j else 0 := by
  show x i + ∑ j ∈ Finset.univ.filter (fun j => d.resultIdx? j idx = some i), upd j = _
  rw [Finset.sum_filter]
  refine congrArg _ (Finset.sum_congr rfl fun j _ => if_congr ?_ rfl rfl)
  unfold ScatterDims.resultIdx?
  split
  · rename_i hin
    rw [Option.some.injEq, funext_iff]
    refine forall_congr' fun a => ?_
    rw [Fin.ext_iff]
    have := (hin a).1
    show (d.start j idx a + (d.window j a : ℤ)).toNat = (i a).val ↔ _
    omega
  · rename_i hout
    exact ⟨nofun, fun e => absurd (fun a => by have := (i a).isLt; have := e a; omega) hout⟩

theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

section Ref
variable [Cert.ReferenceIdeal.Facts₀]

abbrev sumScat := Cert.ReferenceIdeal.scatter_S512x64_S50000x1_S50000x64_1_0_0_1
abbrev cntScat := Cert.ReferenceIdeal.scatter_S512_S50000x1_S50000_n_0_0_1

-- A node row `(n, f')` lands on `(g, f)` exactly when `f' = f` and the node's graph id, read signed, is `g`.
theorem sumScat_apply (x : FVec Ideal S512x64 .f32) (idx : IVec S50000x1 32) (h : FVec Ideal S50000x64 .f32)
    (g : Fin 512) (f : Fin 64) :
    Host.scatterAdd (F := Ideal) sumScat x idx h (ix2 g f)
      = x (ix2 g f) + ∑ n : Fin 50000, if (idx (ix2 n (0 : Fin 1))).toInt = (g.val : ℤ) then h (ix2 n f) else 0 := by
  rw [scatterAdd_apply, sum_idx2]
  refine congrArg _ (Finset.sum_congr rfl fun n _ => ?_)
  have hl : ∀ f' : Fin 64,
      (∀ a, sumScat.start (ix2 n f') idx a + (sumScat.window (ix2 n f') a : ℤ) = (((ix2 g f : S512x64.Idx) a).val : ℤ))
        ↔ f' = f ∧ (idx (ix2 n (0 : Fin 1))).toInt = (g.val : ℤ) := fun f' => by
    rw [Fin.forall_fin_two, Fin.ext_iff]
    show (idx (sumScat.siIdx (ix2 n f') ⟨0, Nat.one_pos⟩)).toInt + ((0 : ℕ) : ℤ) = (g.val : ℤ)
      ∧ (0 : ℤ) + ((f'.val : ℕ) : ℤ) = (f.val : ℤ) ↔ _
    rw [show sumScat.siIdx (ix2 n f') ⟨0, Nat.one_pos⟩ = ix2 n (0 : Fin 1) from Shape.idx_ext₂ rfl rfl]
    omega
  simp only [hl, ite_and, Finset.sum_ite_eq', Finset.mem_univ, if_true]

-- A node `n` lands on `g` exactly when its graph id, read signed, is `g`.
theorem cntScat_apply (x : FVec Ideal S512 .f32) (idx : IVec S50000x1 32) (u : FVec Ideal S50000 .f32) (g : Fin 512) :
    Host.scatterAdd (F := Ideal) cntScat x idx u (ix1 g)
      = x (ix1 g) + ∑ n : Fin 50000, if (idx (ix2 n (0 : Fin 1))).toInt = (g.val : ℤ) then u (ix1 n) else 0 := by
  rw [scatterAdd_apply, sum_idx1]
  refine congrArg _ (Finset.sum_congr rfl fun n _ => if_congr ?_ rfl rfl)
  rw [Fin.forall_fin_one]
  show (idx (cntScat.siIdx (ix1 n) ⟨0, Nat.one_pos⟩)).toInt + ((0 : ℕ) : ℤ) = (g.val : ℤ) ↔ _
  rw [show cntScat.siIdx (ix1 n) ⟨0, Nat.one_pos⟩ = ix2 n (0 : Fin 1) from Shape.idx_ext₂ rfl rfl]
  omega

end Ref

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastInDim_a_a1_apply {α : Type} {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x (ix2 i u) (ix1 i) fun ax => match ax with
    | ⟨0, _⟩ => show i.val = if a = 1 then 0 else i.val by split <;> omega

section Final
variable [Cert.ReferenceIdeal.Facts]

def refSums (h : FVec Ideal S50000x64 .f32) (bt : IVec S50000 32) : FVec Ideal S512x64 .f32 :=
  Host.scatterAdd (F := Ideal) Cert.ReferenceIdeal.scatter_S512x64_S50000x1_S50000x64_1_0_0_1
    (broadcastInDim S512x64 ![] Cert.ReferenceIdeal.Facts₀.bcast_S_S512x64 (constant (F := Ideal) S_ .f32 0x00000000#32))
    (broadcastInDim S50000x1 ![0] Cert.ReferenceIdeal.Facts₀.bcast_S50000_S50000x1_0 bt) h

def refCnts (bt : IVec S50000 32) : FVec Ideal S512 .f32 :=
  Host.scatterAdd (F := Ideal) Cert.ReferenceIdeal.scatter_S512_S50000x1_S50000_n_0_0_1
    (broadcastInDim S512 ![] Cert.ReferenceIdeal.Facts₀.bcast_S_S512 (constant (F := Ideal) S_ .f32 0x00000000#32))
    (broadcastInDim S50000x1 ![0] Cert.ReferenceIdeal.Facts₀.bcast_S50000_S50000x1_0 bt)
    (broadcastInDim S50000 ![] Cert.ReferenceIdeal.Facts₀.bcast_S_S50000 (constant (F := Ideal) S_ .f32 0x3F800000#32))

-- Both sides sum, per graph, the rows of the nodes whose graph id it is.
theorem sums_eq (h : FVec Ideal S50000x64 .f32) (bt : IVec S50000 32) :
    poolSums (F := Ideal) h (batch2K bt) 24 = refSums h bt := by
  funext j
  obtain ⟨g, f, rfl⟩ : ∃ (g : Fin 512) (f : Fin 64), j = ix2 g f := ⟨j 0, j 1, eq_ix2 j⟩
  rw [poolSums_last, refSums, sumScat_apply, broadcastInDim_scalar_apply, constant_apply, Ideal.ofBits_zero_f32, zero_add]
  refine Finset.sum_congr rfl fun n _ => ?_
  rw [batch2K, shapeCast_a_a1_apply, broadcastInDim_a_a1_apply]

-- Both sides count, per graph, the nodes whose graph id it is.
theorem cnts_eq (bt : IVec S50000 32) (g : Fin 512) :
    poolCnts (F := Ideal) (batch2K bt) 24 (ix2 g (0 : Fin 1)) = refCnts bt (ix1 g) := by
  rw [poolCnts_last, refCnts, cntScat_apply, broadcastInDim_scalar_apply, constant_apply, Ideal.ofBits_zero_f32, zero_add]
  refine Finset.sum_congr rfl fun n _ => ?_
  rw [batch2K, shapeCast_a_a1_apply, broadcastInDim_a_a1_apply, broadcastInDim_scalar_apply, constant_apply,
    Ideal.ofBits_one_f32]

end Final

end Cert.Bridge

end
-- ==== Proof.Math.Pool.lean ====
import proofs.«409757_j13056700579878_4_alg».proof.Proof.Math.PoolSums
import Idealize.ShloMosaic.Lib.KernelVsHost

noncomputable section

namespace Cert.Bridge

open Idealize.ShloMosaic Idealize.ShloMosaic.ValueIdx
open Cert.ReferenceIdeal Cert.ReferenceIdeal.Facts₀

-- The source coordinate of a broadcast along an axis of extent `a`: the coordinate itself, which is 0 when `a = 1`.
private theorem val_eq_ite {a : ℕ} (r : Fin a) : r.val = if a = 1 then 0 else r.val := by split <;> omega

section Layout
variable {α : Type}

theorem broadcastTo_a1_ab_apply {a b : ℕ} (x : (⟨2, ![a, 1]⟩ : Shape).Idx → α)
    (h : (⟨2, ![a, 1]⟩ : Shape).Broadcasts ⟨2, ![a, b]⟩) (r : Fin a) (c : Fin b) :
    broadcastTo ⟨2, ![a, b]⟩ x h (ix2 r c) = x (ix2 r (0 : Fin 1)) := by
  refine broadcastTo_apply x h (ix2 r c) (ix2 r (0 : Fin 1)) fun ax => ?_
  match ax with
  | ⟨0, _⟩ => exact val_eq_ite r
  | ⟨1, _⟩ => rfl

theorem broadcastInDim_a1_ab_apply {a b : ℕ} (x : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h x (ix2 r c) = x (ix2 r (0 : Fin 1)) := by
  refine broadcastInDim_apply ![0, 1] h x (ix2 r c) (ix2 r (0 : Fin 1)) fun ax => ?_
  match ax with
  | ⟨0, _⟩ => exact val_eq_ite r
  | ⟨1, _⟩ => rfl

theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ => exact val_eq_ite c

-- A vector laid along every row reads the same entry whichever way the broadcast is spelled.
theorem rowBcast_eq {m n : ℕ} (x : (⟨1, ![n]⟩ : Shape).Idx → α) (h1 : (⟨1, ![n]⟩ : Shape).ShapeCasts ⟨2, ![1, n]⟩)
    (hb : (⟨2, ![1, n]⟩ : Shape).Broadcasts ⟨2, ![m, n]⟩) (h2 : (⟨1, ![n]⟩ : Shape).BroadcastsInDim ⟨2, ![1, n]⟩ ![1])
    (h3 : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] h3 (broadcastInDim ⟨2, ![1, n]⟩ ![1] h2 x) := by
  funext i
  obtain ⟨r, t, rfl⟩ : ∃ (r : Fin m) (t : Fin n), i = ix2 r t := ⟨i 0, i 1, eq_ix2 i⟩
  rw [broadcastTo_1b_ab_apply, shapeCast_a_1a_apply, broadcastInDim_oneRow_apply, broadcastInDim_b_1b_apply]

-- Likewise a vector laid along every column.
theorem colBcast_eq {a b : ℕ} (x : (⟨1, ![a]⟩ : Shape).Idx → α) (h1 : (⟨1, ![a]⟩ : Shape).ShapeCasts ⟨2, ![a, 1]⟩)
    (hb : (⟨2, ![a, 1]⟩ : Shape).Broadcasts ⟨2, ![a, b]⟩) (h2 : (⟨1, ![a]⟩ : Shape).BroadcastsInDim ⟨2, ![a, 1]⟩ ![0])
    (h3 : (⟨2, ![a, 1]⟩ : Shape).BroadcastsInDim ⟨2, ![a, b]⟩ ![0, 1]) :
    broadcastTo ⟨2, ![a, b]⟩ (shapeCast ⟨2, ![a, 1]⟩ x h1) hb
      = broadcastInDim ⟨2, ![a, b]⟩ ![0, 1] h3 (broadcastInDim ⟨2, ![a, 1]⟩ ![0] h2 x) := by
  funext i
  obtain ⟨r, t, rfl⟩ : ∃ (r : Fin a) (t : Fin b), i = ix2 r t := ⟨i 0, i 1, eq_ix2 i⟩
  rw [broadcastTo_a1_ab_apply, shapeCast_a_a1_apply, broadcastInDim_a1_ab_apply, broadcastInDim_a_a1_apply]

end Layout

-- A maximum over one axis from the accumulator `w` is the maximum of `w` with the fold of `max` from `w`, which `w` is below.
theorem rowMax_eq {s t u : Shape} {φ : FTy} {a : Fin s.rank} (src : FVec Ideal s φ) (w : BitVec φ.bits)
    (h : s.Reduces [a] t) (hφ : FKind.Formats φ) (hacc : w = FKind.maximumf.neutral φ hφ)
    (h' : s.ReducesTo [a] t) (hu : 0 < u.numel) (hb : (⟨0, ![]⟩ : Shape).BroadcastsInDim t ![]) :
    multiReduction .maximumf [a] t src w h hφ hacc
      = maximumf (broadcastInDim t ![] hb (constant (F := Ideal) ⟨0, ![]⟩ φ w))
          (Host.reduce FloatOps.maximumf src (constant (F := Ideal) u φ w) h' hu) := by
  funext j
  refine (Ideal.multiReduction_maximumf_single src w h hφ hacc j).trans ?_
  rw [maximumf_apply, Host.reduce_eq_fold_single FloatOps.maximumf src _ h' h hu j, broadcastInDim_scalar_apply, constant_apply,
    constant_apply]
  exact (max_eq_right ((Finset.le_fold_max _).mpr (Or.inl le_rfl))).symm

section Readout
variable [Facts]

-- The count column with its floor, laid across the features, is the count vector with its floor laid across them.
theorem meanDen_eq (c : FVec Ideal S512x1 .f32) (v : FVec Ideal S512 .f32)
    (hc : ∀ g : Fin 512, c (ix2 g (0 : Fin 1)) = v (ix1 g)) (w : BitVec 32) (hb : S512x1.Broadcasts S512x64) :
    broadcastTo S512x64 (maximumf c (broadcast S512x1 (Scalar.ofBits (F := Ideal) .f32 w))) hb
      = broadcastInDim S512x64 ![0, 1] bcast_S512x1_S512x64_0_1 (broadcastInDim S512x1 ![0] bcast_S512_S512x1_0
          (maximumf v (broadcastInDim S512 ![] bcast_S_S512 (constant (F := Ideal) S_ .f32 w)))) := by
  funext i
  obtain ⟨g, f, rfl⟩ : ∃ (g : Fin 512) (f : Fin 64), i = ix2 g f := ⟨i 0, i 1, eq_ix2 i⟩
  rw [broadcastTo_a1_ab_apply, broadcastInDim_a1_ab_apply, broadcastInDim_a_a1_apply, maximumf_apply, maximumf_apply, hc,
    broadcast_apply, broadcastInDim_scalar_apply, constant_apply]
  rfl

end Readout

-- With the sums and the counts equal, the two read-outs are operation by operation the same function of them.
theorem pool_eq [Cert.KernelIdeal.Facts] [Cert.ReferenceIdeal.Facts] (h : FVec Ideal S50000x64 .f32) (bt : IVec S50000 32)
    (fcw : FVec Ideal S16x64 .f32) (fcb : FVec Ideal S16 .f32) (fzw : FVec Ideal S2x16 .f32) (fzb : FVec Ideal S2 .f32) :
    Cert.KernelIdeal.Hand.poolWhole (F := Ideal) h (Cert.KernelIdeal.Hand.batch2K bt) fcw fcb fzw fzb
      = Cert.ReferenceIdeal.Hand.poolR (F := Ideal) h bt fcw fcb fzw fzb := by
  simp only [Cert.KernelIdeal.Hand.poolWhole, Cert.ReferenceIdeal.Hand.poolR, Cert.KernelIdeal.Gen.k4_pay6, sums_eq,
    meanDen_eq _ _ (cnts_eq bt), matmul_zero_eq_dotGeneral,
    rowBcast_eq _ _ _ bcast_S16_S1x16_1 bcast_S1x16_S512x16_0_1,
    rowBcast_eq _ _ _ bcast_S2_S1x2_1 bcast_S1x2_S512x2_0_1,
    colBcast_eq _ _ _ bcast_S512_S512x1_0 bcast_S512x1_S512x2_0_1,
    broadcastInDim_constant,
    rowMax_eq _ 0xFF800000#32 _ (.inl rfl) rfl reducesTo_S512x2_S512_d1 h_S_ bcast_S_S512,
    multiReduction_add_eq_hostReduceAdd _ 0x00000000#32 _ (.inl rfl) rfl (constant (F := Ideal) S_ .f32 0x00000000#32)
      reducesTo_S512x2_S512_d1 h_S_ Ideal.ofBits_zero_f32]
  rfl

end Cert.Bridge

end
-- ==== Proof.Math.Bridge.lean ====
import proofs.«409757_j13056700579878_4_alg».proof.Proof.KI.Out
import proofs.«409757_j13056700579878_4_alg».proof.Proof.Ref.Spec
import proofs.«409757_j13056700579878_4_alg».proof.Proof.Math.PreRange
import proofs.«409757_j13056700579878_4_alg».proof.Proof.Math.Take
import proofs.«409757_j13056700579878_4_alg».proof.Proof.Math.Edge
import proofs.«409757_j13056700579878_4_alg».proof.Proof.Math.Node
import proofs.«409757_j13056700579878_4_alg».proof.Proof.Math.Pool

noncomputable section

namespace Cert.Bridge

open Idealize.ShloMosaic Idealize.ShloMosaic.ValueIdx
open Cert.KernelIdeal.Hand Cert.ReferenceIdeal.Hand

variable [Cert.KernelIdeal.Facts] [Cert.ReferenceIdeal.Facts]

-- One layer: under the index range of its two index rows the kernel program's layer is the reference's.
theorem layer_eq (h : FVec Ideal Cert.KernelIdeal.S50000x64 .f32) (s d : IVec Cert.KernelIdeal.S800000 32)
    (hs : ∀ e : Fin 800000, 0 ≤ (s (ix1 e)).toInt ∧ (s (ix1 e)).toInt < 50000)
    (hd : ∀ e : Fin 800000, 0 ≤ (d (ix1 e)).toInt ∧ (d (ix1 e)).toInt < 50000)
    (ea : FVec Ideal Cert.KernelIdeal.S800000x8 .f32) (fe_w : FVec Ideal Cert.KernelIdeal.S4x136 .f32)
    (fe_b : FVec Ideal Cert.KernelIdeal.S4 .f32) (fh_w : FVec Ideal Cert.KernelIdeal.S64x68 .f32)
    (fh_b : FVec Ideal Cert.KernelIdeal.S64 .f32) :
    layerK (F := Ideal) h s d ea fe_w fe_b fh_w fh_b
      = nodeR (F := Ideal) h (aggR s (edgeR (F := Ideal) (gatherRows h s) (gatherRows h d) ea fe_w fe_b)) fh_w fh_b := by
  unfold layerK
  rw [take_eq h s hs, take_eq h d hd, edge_eq, agg_eq, node_eq]

variable [Cert.Pre_finite_inputs.Facts]

theorem out_eq
    (a0 : FVec Ideal Cert.KernelIdeal.S50000x64 .f32) (a1 : IVec Cert.KernelIdeal.S2x800000 32)
    (a2 : FVec Ideal Cert.KernelIdeal.S800000x8 .f32) (a3 : IVec Cert.KernelIdeal.S50000 32)
    (a4 : FVec Ideal Cert.KernelIdeal.S4x136 .f32) (a5 : FVec Ideal Cert.KernelIdeal.S4 .f32)
    (a6 : FVec Ideal Cert.KernelIdeal.S64x68 .f32) (a7 : FVec Ideal Cert.KernelIdeal.S64 .f32)
    (a8 : FVec Ideal Cert.KernelIdeal.S4x136 .f32) (a9 : FVec Ideal Cert.KernelIdeal.S4 .f32)
    (a10 : FVec Ideal Cert.KernelIdeal.S64x68 .f32) (a11 : FVec Ideal Cert.KernelIdeal.S64 .f32)
    (a12 : FVec Ideal Cert.KernelIdeal.S16x64 .f32) (a13 : FVec Ideal Cert.KernelIdeal.S16 .f32)
    (a14 : FVec Ideal Cert.KernelIdeal.S2x16 .f32) (a15 : FVec Ideal Cert.KernelIdeal.S2 .f32)
    (hpre : Cert.Pre_finite_inputs.fn (F := Ideal) a0 a1 a2 a3 a4 a5 a6 a7 a8 a9 a10 a11 a12 a13 a14 a15 = (fun _ => 1#1)) :
    kerOut (F := Ideal) a0 a1 a2 a3 a4 a5 a6 a7 a8 a9 a10 a11 a12 a13 a14 a15
      = refOut (F := Ideal) a0 a1 a2 a3 a4 a5 a6 a7 a8 a9 a10 a11 a12 a13 a14 a15 := by
  have hs := src_range_of_pre a0 a1 a2 a3 a4 a5 a6 a7 a8 a9 a10 a11 a12 a13 a14 a15 hpre
  have hd := dst_range_of_pre a0 a1 a2 a3 a4 a5 a6 a7 a8 a9 a10 a11 a12 a13 a14 a15 hpre
  unfold kerOut
  rw [layer_eq a0 _ _ hs hd, layer_eq _ _ _ hs hd, pool_eq]
  rfl

end Cert.Bridge

end
-- ==== Proof.lean ====
import proofs.«409757_j13056700579878_4_alg».proof.Defs
import proofs.«409757_j13056700579878_4_alg».proof.Proof.Gen.Kernel
import proofs.«409757_j13056700579878_4_alg».proof.Proof.Gen.KernelIdeal
import proofs.«409757_j13056700579878_4_alg».proof.Proof.Gen.ReferenceIdeal
import proofs.«409757_j13056700579878_4_alg».proof.Proof.Gen.Pre_finite_inputs
import proofs.«409757_j13056700579878_4_alg».proof.Proof.K.Run
import proofs.«409757_j13056700579878_4_alg».proof.Proof.KI.OutVal
import proofs.«409757_j13056700579878_4_alg».proof.Proof.Ref.Run
import proofs.«409757_j13056700579878_4_alg».proof.Proof.Math.Bridge

noncomputable section

namespace Cert.Proof

open Idealize.ShloMosaic Idealize.ShloMosaic.TcCoe Idealize.SL.Sem

-- Each frame is the program's run with the result's conjunct dropped.
theorem frame_p : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_main (F := Bits) m ρ)

theorem frame_pi : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

theorem preserves : Cert.preserves_Kernel_KernelIdeal := trivial

-- Over the extended reals both runs end at one function of the sixteen arguments: exact sums regroup (a product over a concatenated axis is the sum over the pieces, a product with a one-hot matrix the sum over the members, a sum over all rows the sum of the tiles' sums), and on node indices the two gathers read the same row.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.o12 m c, Cert.KernelIdeal.Hand.run_main (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9, e10, e11, e12, e13, e14, e15⟩ := hagree c
  rw [e0, e1, e2, e3, e4, e5, e6, e7, e8, e9, e10, e11, e12, e13, e14, e15]
  exact ((Cert.KernelIdeal.Hand.o12_eq (F := Ideal) m c).trans
    (Cert.Bridge.out_eq _ _ _ _ _ _ _ _ _ _ _ _ _ _ _ _ (hpre c))).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_p, Cert.Proof.frame_pi, Cert.Proof.frame_ri, Cert.Proof.preserves, Cert.Proof.algebraic⟩

end
